-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x256x256 : Shape := ⟨4, ![8, 32, 256, 256]⟩
abbrev S8x256x256 : Shape := ⟨3, ![8, 256, 256]⟩
abbrev S_ : Shape := ⟨0, ![]⟩

class Facts : Prop where
  bcast_S_S8x32x256x256 : S_.BroadcastsInDim S8x32x256x256 (![] : Fin 0 → Fin S8x32x256x256.rank)
  reducesTo_S8x32x256x256_S_d0_1_2_3 : S8x32x256x256.ReducesTo [0, 1, 2, 3] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S8x32x256x256 .f32) (main_arg1 : IVec S8x256x256 32) : IVec S_ 1 :=
  let main_v0 : FVec F S8x32x256x256 .f32 := Host.absf main_arg0
  let main_cst : FVec F S_ .f32 := constant S_ .f32 0x7F800000#32
  let main_v1 : FVec F S8x32x256x256 .f32 := broadcastInDim S8x32x256x256 ![] bcast_S_S8x32x256x256 main_cst
  let main_v2 : IVec S8x32x256x256 1 := cmpf .olt main_v0 main_v1
  let main_c : IVec S_ 1 := constantI S_ 1 1#1
  let main_v3 : IVec S_ 1 := (fun x v => Host.reduce IntOp.andi x v reducesTo_S8x32x256x256_S_d0_1_2_3 h_S_) main_v2 main_c
  let main_c_0 : IVec S_ 32 := constantI S_ 32 0#32
  let main_v4 : IVec S8x256x256 32 := broadcastInDim S8x256x256 ![] bcast_S_S8x256x256 main_c_0
  let main_v5 : IVec S8x256x256 1 := cmpi .sge main_arg1 main_v4
  let main_c_1 : IVec S_ 1 := constantI S_ 1 1#1
  let main_v6 : IVec S_ 1 := (fun x v => Host.reduce IntOp.andi x v reducesTo_S8x256x256_S_d0_1_2 h_S_) main_v5 main_c_1
  let main_v7 : IVec S_ 1 := andi main_v3 main_v6
  let main_c_2 : IVec S_ 32 := constantI S_ 32 36#32
  let main_v8 : IVec S8x256x256 32 := broadcastInDim S8x256x256 ![] bcast_S_S8x256x256 main_c_2
  let main_v9 : IVec S8x256x256 1 := cmpi .slt main_arg1 main_v8
  let main_c_3 : IVec S_ 1 := constantI S_ 1 1#1
  let main_v10 : IVec S_ 1 := (fun x v => Host.reduce IntOp.andi x v reducesTo_S8x256x256_S_d0_1_2 h_S_) main_v9 main_c_3
  let main_v11 : IVec S_ 1 := andi main_v7 main_v10
  main_v11
-- ==== Kernel.lean ====
abbrev S8x32x256x256 : Shape := ⟨4, ![8, 32, 256, 256]⟩
abbrev S8x256x256 : Shape := ⟨3, ![8, 256, 256]⟩
abbrev S8x32x65536 : Shape := ⟨3, ![8, 32, 65536]⟩
abbrev S8x65536 : Shape := ⟨2, ![8, 65536]⟩
abbrev S8x1x65536 : Shape := ⟨3, ![8, 1, 65536]⟩
abbrev S8x32x36 : Shape := ⟨3, ![8, 32, 36]⟩
abbrev S8x1x36 : Shape := ⟨3, ![8, 1, 36]⟩
abbrev S1x32x32768 : Shape := ⟨3, ![1, 32, 32768]⟩
abbrev S1x1x32768 : Shape := ⟨3, ![1, 1, 32768]⟩
abbrev S1x32x36 : Shape := ⟨3, ![1, 32, 36]⟩
abbrev S1x1x36 : Shape := ⟨3, ![1, 1, 36]⟩
abbrev S33x36 : Shape := ⟨2, ![33, 36]⟩
abbrev S32x32768 : Shape := ⟨2, ![32, 32768]⟩
abbrev S32768 : Shape := ⟨1, ![32768]⟩
abbrev S36x1 : Shape := ⟨2, ![36, 1]⟩
abbrev S1x32768 : Shape := ⟨2, ![1, 32768]⟩
abbrev S36x32768 : Shape := ⟨2, ![36, 32768]⟩
abbrev S33x32768 : Shape := ⟨2, ![33, 32768]⟩
abbrev S1x36 : Shape := ⟨2, ![1, 36]⟩
abbrev S32x36 : Shape := ⟨2, ![32, 36]⟩
abbrev S8x36 : Shape := ⟨2, ![8, 36]⟩
abbrev S8x36x32 : Shape := ⟨3, ![8, 36, 32]⟩
abbrev S_ : Shape := ⟨0, ![]⟩
abbrev S50 : Shape := ⟨1, ![50]⟩
abbrev S8x36x1 : Shape := ⟨3, ![8, 36, 1]⟩
abbrev S1x1x50 : Shape := ⟨3, ![1, 1, 50]⟩
abbrev S8x36x50 : Shape := ⟨3, ![8, 36, 50]⟩
abbrev S8x1800 : Shape := ⟨2, ![8, 1800]⟩
abbrev S8x1800x1 : Shape := ⟨3, ![8, 1800, 1]⟩
abbrev S1 : Shape := ⟨1, ![1]⟩
abbrev S1x1x1 : Shape := ⟨3, ![1, 1, 1]⟩
abbrev S8x1x1800 : Shape := ⟨3, ![8, 1, 1800]⟩
abbrev S8x32x1800 : Shape := ⟨3, ![8, 32, 1800]⟩
abbrev S8x32x1800x1 : Shape := ⟨4, ![8, 32, 1800, 1]⟩
abbrev S1x1x1x1 : Shape := ⟨4, ![1, 1, 1, 1]⟩
abbrev S8x1800x32 : Shape := ⟨3, ![8, 1800, 32]⟩
abbrev S36 : Shape := ⟨1, ![36]⟩
abbrev S36x50 : Shape := ⟨2, ![36, 50]⟩
abbrev S1800 : Shape := ⟨1, ![1800]⟩
abbrev S8x1800x36 : Shape := ⟨3, ![8, 1800, 36]⟩
abbrev S1x1800x1 : Shape := ⟨3, ![1, 1800, 1]⟩
abbrev S1x1800x36 : Shape := ⟨3, ![1, 1800, 36]⟩
abbrev S8 : Shape := ⟨1, ![8]⟩

abbrev nBuf : Space → Nat
  | .hbm => 158
  | .vmem => 9
  | .smem => 0
  | _ => 0

abbrev hbmTy0_0 (i : Nat) : BufTy := match i % 128 with
  | 0 => ⟨S8x32x256x256, .f32⟩
  | 1 => ⟨S8x256x256, .i32⟩
  | 2 => ⟨S8x32x65536, .f32⟩
  | 3 => ⟨S8x65536, .i32⟩
  | 4 => ⟨S8x1x65536, .i32⟩
  | 5 => ⟨S8x32x36, .f32⟩
  | 6 => ⟨S8x1x36, .f32⟩
  | 7 => ⟨S8x36, .f32⟩
  | 8 => ⟨S8x36x32, .f32⟩
  | 9 => ⟨S8x36, .f32⟩
  | 10 => ⟨S8x36, .i32⟩
  | 11 => ⟨S_, .i32⟩
  | 12 => ⟨S8x36, .i32⟩
  | 13 => ⟨S8x36, .i1⟩
  | 14 => ⟨S_, .i32⟩
  | 15 => ⟨S8x65536, .i32⟩
  | 16 => ⟨S8x65536, .i32⟩
  | 17 => ⟨S8x65536, .i32⟩
  | 18 => ⟨S8x65536, .i32⟩
  | 19 => ⟨S8x65536, .i32⟩
  | 20 => ⟨S8x65536, .i32⟩
  | 21 => ⟨S8x65536, .i32⟩
  | 22 => ⟨S_, .i32⟩
  | 23 => ⟨S_, .i32⟩
  | 24 => ⟨S8x36, .i32⟩
  | 25 => ⟨S8x36, .i32⟩
  | 26 => ⟨S50, .i32⟩
  | 27 => ⟨S8x36x1, .i32⟩
  | 28 => ⟨S1x1x50, .i32⟩
  | 29 => ⟨S8x36x50, .i32⟩
  | 30 => ⟨S8x36x50, .i32⟩
  | 31 => ⟨S8x36x50, .i32⟩
  | 32 => ⟨S_, .i32⟩
  | 33 => ⟨S8x36x50, .i32⟩
  | 34 => ⟨S8x36x50, .i32⟩
  | 35 => ⟨S8x1800, .i32⟩
  | 36 => ⟨S_, .i32⟩
  | 37 => ⟨S8x1800, .i32⟩
  | 38 => ⟨S8x1800, .i1⟩
  | 39 => ⟨S_, .i32⟩
  | 40 => ⟨S8x1800, .i32⟩
  | 41 => ⟨S8x1800, .i32⟩
  | 42 => ⟨S8x1800, .i32⟩
  | 43 => ⟨S8x1800x1, .i32⟩
  | 44 => ⟨S1, .i32⟩
  | 45 => ⟨S_, .i32⟩
  | 46 => ⟨S8x1800x1, .i32⟩
  | 47 => ⟨S8x1800x1, .i1⟩
  | 48 => ⟨S1x1x1, .i32⟩
  | 49 => ⟨S8x1800x1, .i32⟩
  | 50 => ⟨S8x1800x1, .i1⟩
  | 51 => ⟨S8x1800x1, .i1⟩
  | 52 => ⟨S_, .i1⟩
  | 53 => ⟨S8x1800, .i1⟩
  | 54 => ⟨S8x1800, .i32⟩
  | 55 => ⟨S_, .i32⟩
  | 56 => ⟨S8x1800, .i32⟩
  | 57 => ⟨S8x1800, .i32⟩
  | 58 => ⟨S8x1x1800, .i32⟩
  | 59 => ⟨S8x32x1800, .i32⟩
  | 60 => ⟨S_, .i32⟩
  | 61 => ⟨S8x32x1800, .i32⟩
  | 62 => ⟨S8x32x1800, .i1⟩
  | 63 => ⟨S_, .i32⟩
  | 64 => ⟨S8x32x1800, .i32⟩
  | 65 => ⟨S8x32x1800, .i32⟩
  | 66 => ⟨S8x32x1800, .i32⟩
  | 67 => ⟨S8x32x1800x1, .i32⟩
  | 68 => ⟨S1, .i32⟩
  | 69 => ⟨S_, .i32⟩
  | 70 => ⟨S8x32x1800x1, .i32⟩
  | 71 => ⟨S8x32x1800x1, .i1⟩
  | 72 => ⟨S1x1x1x1, .i32⟩
  | 73 => ⟨S8x32x1800x1, .i32⟩
  | 74 => ⟨S8x32x1800x1, .i1⟩
  | 75 => ⟨S8x32x1800x1, .i1⟩
  | 76 => ⟨S_, .i1⟩
  | 77 => ⟨S8x32x1800, .i1⟩
  | 78 => ⟨S8x32x1800, .f32⟩
  | 79 => ⟨S_, .f32⟩
  | 80 => ⟨S8x32x1800, .f32⟩
  | 81 => ⟨S8x32x1800, .f32⟩
  | 82 => ⟨S8x1800x32, .f32⟩
  | 83 => ⟨S1x1x50, .i32⟩
  | 84 => ⟨S8x36x1, .i32⟩
  | 85 => ⟨S8x36x50, .i32⟩
  | 86 => ⟨S8x36x50, .i32⟩
  | 87 => ⟨S8x36x50, .i1⟩
  | 88 => ⟨S8x36x50, .f32⟩
  | 89 => ⟨S8x1800, .f32⟩
  | 90 => ⟨S36, .i32⟩
  | 91 => ⟨S36x50, .i32⟩
  | 92 => ⟨S1800, .i32⟩
  | 93 => ⟨S8x1800x36, .f32⟩
  | 94 => ⟨S_, .f32⟩
  | 95 => ⟨S8x1800x36, .f32⟩
  | 96 => ⟨S8x1800x36, .f32⟩
  | 97 => ⟨S8x1x36, .i1⟩
  | 98 => ⟨S8x1x36, .f32⟩
  | 99 => ⟨S_, .f32⟩
  | 100 => ⟨S_, .f32⟩
  | 101 => ⟨S8x1800x36, .i1⟩
  | 102 => ⟨S8x1800x36, .f32⟩
  | 103 => ⟨S8x1800x36, .f32⟩
  | 104 => ⟨S_, .f32⟩
  | 105 => ⟨S8x1800, .f32⟩
  | 106 => ⟨S8x1800x1, .f32⟩
  | 107 => ⟨S8x1800x36, .f32⟩
  | 108 => ⟨S8x1800x36, .f32⟩
  | 109 => ⟨S1x1800x1, .i32⟩
  | 110 => ⟨S36, .i32⟩
  | 111 => ⟨S1x1x36, .i32⟩
  | 112 => ⟨S1x1800x36, .i32⟩
  | 113 => ⟨S1x1800x36, .i32⟩
  | 114 => ⟨S1x1800x36, .i1⟩
  | 115 => ⟨S1x1800x36, .f32⟩
  | 116 => ⟨S8x1800x36, .f32⟩
  | 117 => ⟨S8x1800x36, .f32⟩
  | 118 => ⟨S8x1800x36, .f32⟩
  | 119 => ⟨S8x1800x36, .f32⟩
  | 120 => ⟨S8x1800x36, .f32⟩
  | 121 => ⟨S8x1800x36, .f32⟩
  | 122 => ⟨S_, .f32⟩
  | 123 => ⟨S8x1800x36, .f32⟩
  | 124 => ⟨S8x1800x36, .f32⟩
  | 125 => ⟨S8x1800x36, .f32⟩
  | 126 => ⟨S_, .f32⟩
  | 127 => ⟨S8x1800, .f32⟩
  | _ => ⟨S8x32x256x256, .f32⟩

abbrev hbmTy0_1 (i : Nat) : BufTy := match i % 128 with
  | 0 => ⟨S8x1800x1, .f32⟩
  | 1 => ⟨S8x1800x36, .f32⟩
  | 2 => ⟨S8x1800x36, .f32⟩
  | 3 => ⟨S8x1800x36, .f32⟩
  | 4 => ⟨S8x1800x36, .f32⟩
  | 5 => ⟨S8x1800x36, .f32⟩
  | 6 => ⟨S_, .f32⟩
  | 7 => ⟨S8x1800, .f32⟩
  | 8 => ⟨S_, .f32⟩
  | 9 => ⟨S8x1800, .f32⟩
  | 10 => ⟨S_, .f32⟩
  | 11 => ⟨S8x1800, .f32⟩
  | 12 => ⟨S8x1800, .f32⟩
  | 13 => ⟨S8x1800, .f32⟩
  | 14 => ⟨S_, .f32⟩
  | 15 => ⟨S8x1800, .f32⟩
  | 16 => ⟨S8x1800, .f32⟩
  | 17 => ⟨S8x1800, .f32⟩
  | 18 => ⟨S_, .f32⟩
  | 19 => ⟨S8, .f32⟩
  | 20 => ⟨S_, .f32⟩
  | 21 => ⟨S8, .f32⟩
  | 22 => ⟨S_, .f32⟩
  | 23 => ⟨S8, .f32⟩
  | 24 => ⟨S8, .f32⟩
  | 25 => ⟨S8, .f32⟩
  | 26 => ⟨S_, .f32⟩
  | 27 => ⟨S_, .f32⟩
  | 28 => ⟨S_, .f32⟩
  | 29 => ⟨S_, .f32⟩
  | _ => ⟨S8x32x256x256, .f32⟩

abbrev hbmTy (i : Nat) : BufTy := match i / 128 with
  | 0 => hbmTy0_0 i
  | 1 => hbmTy0_1 i
  | _ => ⟨S8x32x256x256, .f32⟩

abbrev bufTy : (tb : Table) → Fin (tcTables nBuf tb) → BufTy
  | .hbm, ⟨i, _⟩ => hbmTy i
  | .local _ .vmem, ⟨0, _⟩ => ⟨S1x32x32768, .f32⟩
  | .local _ .vmem, ⟨1, _⟩ => ⟨S1x32x32768, .f32⟩
  | .local _ .vmem, ⟨2, _⟩ => ⟨S1x1x32768, .i32⟩
  | .local _ .vmem, ⟨3, _⟩ => ⟨S1x1x32768, .i32⟩
  | .local _ .vmem, ⟨4, _⟩ => ⟨S1x32x36, .f32⟩
  | .local _ .vmem, ⟨5, _⟩ => ⟨S1x32x36, .f32⟩
  | .local _ .vmem, ⟨6, _⟩ => ⟨S1x1x36, .f32⟩
  | .local _ .vmem, ⟨7, _⟩ => ⟨S1x1x36, .f32⟩
  | .local _ .vmem, ⟨8, _⟩ => ⟨S33x36, .f32⟩
  | _, _ => ⟨S8x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call1_v0 : Ref sig .tc := ⟨.hbm, 19, rfl⟩
abbrev main_call1_v1_0 : Ref sig .tc := ⟨.hbm, 20, rfl⟩
abbrev main_v14 : Ref sig .tc := ⟨.hbm, 21, rfl⟩
abbrev main_call2_call0_c : Ref sig .tc := ⟨.hbm, 22, rfl⟩
abbrev main_call2_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call3_c : Ref sig .tc := ⟨.hbm, 36, rfl⟩
abbrev main_call3_v0 : Ref sig .tc := ⟨.hbm, 37, rfl⟩
abbrev main_call3_v1 : Ref sig .tc := ⟨.hbm, 38, rfl⟩
abbrev main_call3_c_0 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_c_1 : Ref sig .tc := ⟨.hbm, 44, rfl⟩
abbrev main_call3_c_2 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_3 : Ref sig .tc := ⟨.hbm, 52, rfl⟩
abbrev main_call3_v12 : Ref sig .tc := ⟨.hbm, 53, rfl⟩
abbrev main_call3_v13 : Ref sig .tc := ⟨.hbm, 54, rfl⟩
abbrev main_call3_c_4 : Ref sig .tc := ⟨.hbm, 55, rfl⟩
abbrev main_call3_v14 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call4_c : Ref sig .tc := ⟨.hbm, 60, rfl⟩
abbrev main_call4_v0 : Ref sig .tc := ⟨.hbm, 61, rfl⟩
abbrev main_call4_v1 : Ref sig .tc := ⟨.hbm, 62, rfl⟩
abbrev main_call4_c_0 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_c_1 : Ref sig .tc := ⟨.hbm, 68, rfl⟩
abbrev main_call4_c_2 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_c_3 : Ref sig .tc := ⟨.hbm, 76, rfl⟩
abbrev main_call4_v12 : Ref sig .tc := ⟨.hbm, 77, rfl⟩
abbrev main_call4_v13 : Ref sig .tc := ⟨.hbm, 78, rfl⟩
abbrev main_call4_cst : Ref sig .tc := ⟨.hbm, 79, rfl⟩
abbrev main_call4_v14 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_2 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v46 : Ref sig .tc := ⟨.hbm, 103, rfl⟩
abbrev main_cst_3 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_4 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_5 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_6 : Ref sig .tc := ⟨.hbm, 134, rfl⟩
abbrev main_v74 : Ref sig .tc := ⟨.hbm, 135, rfl⟩
abbrev main_cst_7 : Ref sig .tc := ⟨.hbm, 136, rfl⟩
abbrev main_v75 : Ref sig .tc := ⟨.hbm, 137, rfl⟩
abbrev main_cst_8 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_9 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_cst_10 : Ref sig .tc := ⟨.hbm, 146, rfl⟩
abbrev main_v82 : Ref sig .tc := ⟨.hbm, 147, rfl⟩
abbrev main_cst_11 : Ref sig .tc := ⟨.hbm, 148, rfl⟩
abbrev main_v83 : Ref sig .tc := ⟨.hbm, 149, rfl⟩
abbrev main_cst_12 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_cst_13 : Ref sig .tc := ⟨.hbm, 154, rfl⟩
abbrev main_v87 : Ref sig .tc := ⟨.hbm, 155, rfl⟩
abbrev main_cst_14 : Ref sig .tc := ⟨.hbm, 156, rfl⟩
abbrev main_v88 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_11 : BitVec 32 := 0#32
  let v26 : BitVec 1 := Scalar.cmpi .ne v25 c0_i32_11
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x36 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x36 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x32x256x256_S8x32x65536 : S8x32x256x256.ShapeCasts S8x32x65536
  shapeCasts_S8x256x256_S8x65536 : S8x256x256.ShapeCasts S8x65536
  shapeCasts_S8x65536_S8x1x65536 : S8x65536.ShapeCasts S8x1x65536
  inb_S33x36_S33x36_0_0 : ∀ a, (![0, 0] : Fin 2 → Nat) a + S33x36.size a ≤ S33x36.size a
  h_S33x36 : 0 < S33x36.numel
  shapeCasts_S33x36_S33x36 : S33x36.ShapeCasts S33x36
  inb_S1x32x32768_S1x32x32768_0_0_0 : ∀ a, (![0, 0, 0] : Fin 3 → Nat) a + S1x32x32768.size a ≤ S1x32x32768.size a
  h_S1x32x32768 : 0 < S1x32x32768.numel
  shapeCasts_S1x32x32768_S32x32768 : S1x32x32768.ShapeCasts S32x32768
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S32768 : S1x1x32768.ShapeCasts S32768
  iota_S36x1_d0_w32 : S36x1.Iotas .tc 32 [0]
  shapeCasts_S32768_S1x32768 : S32768.ShapeCasts S1x32768
  broadcasts_S36x1_S36x32768 : S36x1.Broadcasts S36x32768
  broadcasts_S1x32768_S36x32768 : S1x32768.Broadcasts S36x32768
  natLt_1_32 : 1 < 32
  bitsLt_bf16_f32 : FTy.bits .bf16 < FTy.bits .f32
  concatenates_S32x32768_S1x32768_S33x32768_d0 : Shape.Concatenates [S32x32768, S1x32768] S33x32768 0
  inb_S33x36_S1x36_32_0 : ∀ a, (![32, 0] : Fin 2 → Nat) a + S1x36.size a ≤ S33x36.size a
  h_S1x36 : 0 < S1x36.numel
  inb_S33x36_S32x36_0_0 : ∀ a, (![0, 0] : Fin 2 → Nat) a + S32x36.size a ≤ S33x36.size a
  h_S32x36 : 0 < S32x36.numel
  broadcasts_S1x36_S32x36 : S1x36.Broadcasts S32x36
  inb_S1x32x36_S1x32x36_0_0_0 : ∀ a, (![0, 0, 0] : Fin 3 → Nat) a + S1x32x36.size a ≤ S1x32x36.size a
  h_S1x32x36 : 0 < S1x32x36.numel
  shapeCasts_S1x32x36_S32x36 : S1x32x36.ShapeCasts S32x36
  shapeCasts_S32x36_S1x32x36 : S32x36.ShapeCasts S1x32x36
  inb_S1x1x36_S1x1x36_0_0_0 : ∀ a, (![0, 0, 0] : Fin 3 → Nat) a + S1x1x36.size a ≤ S1x1x36.size a
  h_S1x1x36 : 0 < S1x1x36.numel
  shapeCasts_S1x1x36_S1x36 : S1x1x36.ShapeCasts S1x36
  shapeCasts_S1x36_S1x1x36 : S1x36.ShapeCasts S1x1x36
  shapeCasts_S8x1x36_S8x36 : S8x1x36.ShapeCasts S8x36
  transposes_S8x32x36_S8x36x32_0_2_1 : S8x32x36.Transposes [0, 2, 1] S8x36x32
  bcast_S_S8x36 : S_.BroadcastsInDim S8x36 (![] : Fin 0 → Fin S8x36.rank)
  bcast_S_S8x65536 : S_.BroadcastsInDim S8x65536 (![] : Fin 0 → Fin S8x65536.rank)
  bcast_S_S_ : S_.BroadcastsInDim S_ (![] : Fin 0 → Fin S_.rank)
  reduceWindows_S8x36_S8x36_w1s1p0_0_w36s1p35_0 : S8x36.ReduceWindows (![1, 36] : Fin 2 → Nat) ![1, 1] ![0, 35] ![0, 0] S8x36
  h_S_ : 0 < S_.numel
  bcast_S8x36_S8x36x1_0_1 : S8x36.BroadcastsInDim S8x36x1 (![0, 1] : Fin 2 → Fin S8x36x1.rank)
  bcast_S50_S1x1x50_2 : S50.BroadcastsInDim S1x1x50 (![2] : Fin 1 → Fin S1x1x50.rank)
  bcast_S8x36x1_S8x36x50_0_1_2 : S8x36x1.BroadcastsInDim S8x36x50 (![0, 1, 2] : Fin 3 → Fin S8x36x50.rank)
  bcast_S1x1x50_S8x36x50_0_1_2 : S1x1x50.BroadcastsInDim S8x36x50 (![0, 1, 2] : Fin 3 → Fin S8x36x50.rank)
  bcast_S_S8x36x50 : S_.BroadcastsInDim S8x36x50 (![] : Fin 0 → Fin S8x36x50.rank)
  shapeCasts_S8x36x50_S8x1800 : S8x36x50.ShapeCasts S8x1800
  bcast_S_S8x1800 : S_.BroadcastsInDim S8x1800 (![] : Fin 0 → Fin S8x1800.rank)
  shapeCasts_S8x1800_S8x1800x1 : S8x1800.ShapeCasts S8x1800x1
  bcast_S_S8x1800x1 : S_.BroadcastsInDim S8x1800x1 (![] : Fin 0 → Fin S8x1800x1.rank)
  bcast_S1_S1x1x1_2 : S1.BroadcastsInDim S1x1x1 (![2] : Fin 1 → Fin S1x1x1.rank)
  bcast_S1x1x1_S8x1800x1_0_1_2 : S1x1x1.BroadcastsInDim S8x1800x1 (![0, 1, 2] : Fin 3 → Fin S8x1800x1.rank)
  reducesTo_S8x1800x1_S8x1800_d2 : S8x1800x1.ReducesTo [2] S8x1800
  bcast_S8x1800_S8x1x1800_0_2 : S8x1800.BroadcastsInDim S8x1x1800 (![0, 2] : Fin 2 → Fin S8x1x1800.rank)
  bcast_S8x1x1800_S8x32x1800_0_1_2 : S8x1x1800.BroadcastsInDim S8x32x1800 (![0, 1, 2] : Fin 3 → Fin S8x32x1800.rank)
  bcast_S_S8x32x1800 : S_.BroadcastsInDim S8x32x1800 (![] : Fin 0 → Fin S8x32x1800.rank)
  shapeCasts_S8x32x1800_S8x32x1800x1 : S8x32x1800.ShapeCasts S8x32x1800x1
  bcast_S_S8x32x1800x1 : S_.BroadcastsInDim S8x32x1800x1 (![] : Fin 0 → Fin S8x32x1800x1.rank)
  bcast_S1_S1x1x1x1_3 : S1.BroadcastsInDim S1x1x1x1 (![3] : Fin 1 → Fin S1x1x1x1.rank)
  bcast_S1x1x1x1_S8x32x1800x1_0_1_2_3 : S1x1x1x1.BroadcastsInDim S8x32x1800x1 (![0, 1, 2, 3] : Fin 4 → Fin S8x32x1800x1.rank)
  reducesTo_S8x32x1800x1_S8x32x1800_d3 : S8x32x1800x1.ReducesTo [3] S8x32x1800
  transposes_S8x32x1800_S8x1800x32_0_2_1 : S8x32x1800.Transposes [0, 2, 1] S8x1800x32
  bcast_S36_S36x50_0 : S36.BroadcastsInDim S36x50 (![0] : Fin 1 → Fin S36x50.rank)
  shapeCasts_S36x50_S1800 : S36x50.ShapeCasts S1800
  bcast_S_S8x1800x36 : S_.BroadcastsInDim S8x1800x36 (![] : Fin 0 → Fin S8x1800x36.rank)
  bcast_S8x36_S8x1x36_0_2 : S8x36.BroadcastsInDim S8x1x36 (![0, 2] : Fin 2 → Fin S8x1x36.rank)
  bcast_S8x1x36_S8x1800x36_0_1_2 : S8x1x36.BroadcastsInDim S8x1800x36 (![0, 1, 2] : Fin 3 → Fin S8x1800x36.rank)
  reducesTo_S8x1800x36_S8x1800_d2 : S8x1800x36.ReducesTo [2] S8x1800
  bcast_S8x1800_S8x1800x1_0_1 : S8x1800.BroadcastsInDim S8x1800x1 (![0, 1] : Fin 2 → Fin S8x1800x1.rank)
  bcast_S8x1800x1_S8x1800x36_0_1_2 : S8x1800x1.BroadcastsInDim S8x1800x36 (![0, 1, 2] : Fin 3 → Fin S8x1800x36.rank)
  bcast_S1800_S1x1800x1_1 : S1800.BroadcastsInDim S1x1800x1 (![1] : Fin 1 → Fin S1x1800x1.rank)
  bcast_S36_S1x1x36_2 : S36.BroadcastsInDim S1x1x36 (![2] : Fin 1 → Fin S1x1x36.rank)
  bcast_S1x1800x1_S1x1800x36_0_1_2 : S1x1800x1.BroadcastsInDim S1x1800x36 (![0, 1, 2] : Fin 3 → Fin S1x1800x36.rank)
  bcast_S1x1x36_S1x1800x36_0_1_2 : S1x1x36.BroadcastsInDim S1x1800x36 (![0, 1, 2] : Fin 3 → Fin S1x1800x36.rank)
  bcast_S1x1800x36_S8x1800x36_0_1_2 : S1x1800x36.BroadcastsInDim S8x1800x36 (![0, 1, 2] : Fin 3 → Fin S8x1800x36.rank)
  reducesTo_S8x1800_S8_d1 : S8x1800.ReducesTo [1] S8
  bcast_S_S8 : S_.BroadcastsInDim S8 (![] : Fin 0 → Fin S8.rank)
  reducesTo_S8_S_d0 : S8.ReducesTo [0] S_
  dot_S33x32768_S36x32768_S33x36_1_1_0_0_n_n_wf : DotDims.WF S33x32768 S36x32768 S33x36 [1] [1] [0] [0] [] []
  gather_S8x65536_S8x1800x1_S8x1800_n_1_0_0_1_2_11_wf : GatherDims.WF S8x65536 S8x1800x1 S8x1800 [] [1] [0] [1] [0] 2 ![1, 1]
  gather_S8x32x65536_S8x32x1800x1_S8x32x1800_n_2_01_01_2_3_111_wf : GatherDims.WF S8x32x65536 S8x32x1800x1 S8x32x1800 [] [2] [0, 1] [2] [0, 1] 3 ![1, 1, 1]
  dot_S8x1800x32_S8x36x32_S8x1800x36_2_2_1_1_0_0_wf : DotDims.WF S8x1800x32 S8x36x32 S8x1800x36 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32768.size a ≤ S8x32x65536.size a
  hwx0_0 : ∀ i : grid0.Coords, EltTy.bits .f32 = 32 ∨ (Rect.block (s := S8x32x65536) S1x32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32768.size a ≤ S8x1x65536.size a
  hwx0_1 : ∀ i : grid0.Coords, EltTy.bits .i32 = 32 ∨ (Rect.block (s := S8x1x65536) S1x1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x36.size a ≤ S8x32x36.size a
  hwx0_2 : ∀ i : grid0.Coords, EltTy.bits .f32 = 32 ∨ (Rect.block (s := S8x32x36) S1x32x36.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x36.size a ≤ S8x1x36.size a
  hwx0_3 : ∀ i : grid0.Coords, EltTy.bits .f32 = 32 ∨ (Rect.block (s := S8x1x36) S1x1x36.size (cc0_transform_3 i) (hinb0_3 i)).WholeWords (EltTy.packing .f32)

variable [Facts₀]

def dot_S33x32768_S36x32768_S33x36_1_1_0_0_n_n : DotDims S33x32768 S36x32768 S33x36 where
  lhsContracting := [1]
  rhsContracting := [1]
  lhsNonContracting := [0]
  rhsNonContracting := [0]
  lhsBatch := []
  rhsBatch := []
  wf := dot_S33x32768_S36x32768_S33x36_1_1_0_0_n_n_wf
def comparator_i32_i32_d1 : BitVec 32 × BitVec 32 → BitVec 32 × BitVec 32 → BitVec 1 :=
  fun l r =>
    let v2 := IntOp.cmpi .slt l.1 r.1
    v2
def gather_S8x65536_S8x1800x1_S8x1800_n_1_0_0_1_2_11 : GatherDims S8x65536 S8x1800x1 S8x1800 where
  offsetDims := []
  collapsedSliceDims := [1]
  operandBatchingDims := [0]
  startIndicesBatchingDims := [0]
  startIndexMap := [1]
  indexVectorDim := 2
  sliceSizes := ![1, 1]
  wf := gather_S8x65536_S8x1800x1_S8x1800_n_1_0_0_1_2_11_wf
def gather_S8x32x65536_S8x32x1800x1_S8x32x1800_n_2_01_01_2_3_111 : GatherDims S8x32x65536 S8x32x1800x1 S8x32x1800 where
  offsetDims := []
  collapsedSliceDims := [2]
  operandBatchingDims := [0, 1]
  startIndicesBatchingDims := [0, 1]
  startIndexMap := [2]
  indexVectorDim := 3
  sliceSizes := ![1, 1, 1]
  wf := gather_S8x32x65536_S8x32x1800x1_S8x32x1800_n_2_01_01_2_3_111_wf
def dot_S8x1800x32_S8x36x32_S8x1800x36_2_2_1_1_0_0 : DotDims S8x1800x32 S8x36x32 S8x1800x36 where
  lhsContracting := [2]
  rhsContracting := [2]
  lhsNonContracting := [1]
  rhsNonContracting := [1]
  lhsBatch := [0]
  rhsBatch := [0]
  wf := dot_S8x1800x32_S8x36x32_S8x1800x36_2_2_1_1_0_0_wf

abbrev win0_0 : Pipeline.Window sig grid0 :=
  Pipeline.Window.ofSpec (Memref.whole main_v0) S1x32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x32x36.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x36.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x32x256x256 : Shape := ⟨4, ![8, 32, 256, 256]⟩
abbrev S8x256x256 : Shape := ⟨3, ![8, 256, 256]⟩
abbrev S8x32x65536 : Shape := ⟨3, ![8, 32, 65536]⟩
abbrev S8x65536x32 : Shape := ⟨3, ![8, 65536, 32]⟩
abbrev S8x65536 : Shape := ⟨2, ![8, 65536]⟩
abbrev S36 : Shape := ⟨1, ![36]⟩
abbrev S8x65536x1 : Shape := ⟨3, ![8, 65536, 1]⟩
abbrev S1x1x36 : Shape := ⟨3, ![1, 1, 36]⟩
abbrev S8x65536x36 : Shape := ⟨3, ![8, 65536, 36]⟩
abbrev S_ : Shape := ⟨0, ![]⟩
abbrev S8x36 : Shape := ⟨2, ![8, 36]⟩
abbrev S8x36x32 : Shape := ⟨3, ![8, 36, 32]⟩
abbrev S8x36x1 : Shape := ⟨3, ![8, 36, 1]⟩
abbrev S65536 : Shape := ⟨1, ![65536]⟩
abbrev S8x1x65536 : Shape := ⟨3, ![8, 1, 65536]⟩
abbrev S1x36x1 : Shape := ⟨3, ![1, 36, 1]⟩
abbrev S8x36x65536 : Shape := ⟨3, ![8, 36, 65536]⟩
abbrev S1x1x65536 : Shape := ⟨3, ![1, 1, 65536]⟩
abbrev S8x36x50 : Shape := ⟨3, ![8, 36, 50]⟩
abbrev S8 : Shape := ⟨1, ![8]⟩
abbrev S8x1x1 : Shape := ⟨3, ![8, 1, 1]⟩
abbrev S8x36x50x1 : Shape := ⟨4, ![8, 36, 50, 1]⟩
abbrev S8x36x50x2 : Shape := ⟨4, ![8, 36, 50, 2]⟩
abbrev S8x36x50x32 : Shape := ⟨4, ![8, 36, 50, 32]⟩
abbrev S50 : Shape := ⟨1, ![50]⟩
abbrev S1x1x50 : Shape := ⟨3, ![1, 1, 50]⟩
abbrev S8x1800x32 : Shape := ⟨3, ![8, 1800, 32]⟩
abbrev S8x1800 : Shape := ⟨2, ![8, 1800]⟩
abbrev S36x50 : Shape := ⟨2, ![36, 50]⟩
abbrev S1800 : Shape := ⟨1, ![1800]⟩
abbrev S8x1800x36 : Shape := ⟨3, ![8, 1800, 36]⟩
abbrev S8x1x36 : Shape := ⟨3, ![8, 1, 36]⟩
abbrev S8x1800x1 : Shape := ⟨3, ![8, 1800, 1]⟩
abbrev S1x1800x1 : Shape := ⟨3, ![1, 1800, 1]⟩
abbrev S1x1800x36 : Shape := ⟨3, ![1, 1800, 36]⟩

abbrev nBuf : Space → Nat
  | .hbm => 139
  | .vmem => 0
  | .smem => 0
  | _ => 0

abbrev hbmTy0_0 (i : Nat) : BufTy := match i % 128 with
  | 0 => ⟨S8x32x256x256, .f32⟩
  | 1 => ⟨S8x256x256, .i32⟩
  | 2 => ⟨S8x32x65536, .f32⟩
  | 3 => ⟨S8x65536x32, .f32⟩
  | 4 => ⟨S8x65536, .i32⟩
  | 5 => ⟨S36, .i32⟩
  | 6 => ⟨S8x65536x1, .i32⟩
  | 7 => ⟨S1x1x36, .i32⟩
  | 8 => ⟨S8x65536x36, .i32⟩
  | 9 => ⟨S8x65536x36, .i32⟩
  | 10 => ⟨S8x65536x36, .i1⟩
  | 11 => ⟨S8x65536x36, .f32⟩
  | 12 => ⟨S_, .f32⟩
  | 13 => ⟨S8x36, .f32⟩
  | 14 => ⟨S8x36x32, .f32⟩
  | 15 => ⟨S_, .f32⟩
  | 16 => ⟨S8x36, .f32⟩
  | 17 => ⟨S8x36, .f32⟩
  | 18 => ⟨S8x36x1, .f32⟩
  | 19 => ⟨S8x36x32, .f32⟩
  | 20 => ⟨S8x36x32, .f32⟩
  | 21 => ⟨S_, .f32⟩
  | 22 => ⟨S8x36, .f32⟩
  | 23 => ⟨S8x36, .i1⟩
  | 24 => ⟨S65536, .i32⟩
  | 25 => ⟨S8x1x65536, .i32⟩
  | 26 => ⟨S1x36x1, .i32⟩
  | 27 => ⟨S8x36x65536, .i32⟩
  | 28 => ⟨S8x36x65536, .i32⟩
  | 29 => ⟨S8x36x65536, .i1⟩
  | 30 => ⟨S1x1x65536, .i32⟩
  | 31 => ⟨S1x1x65536, .i32⟩
  | 32 => ⟨S_, .i32⟩
  | 33 => ⟨S1x1x65536, .i32⟩
  | 34 => ⟨S1x1x65536, .i32⟩
  | 35 => ⟨S8x36x65536, .i32⟩
  | 36 => ⟨S8x36x65536, .i32⟩
  | 37 => ⟨S8x36x65536, .i32⟩
  | 38 => ⟨S8x36x65536, .i32⟩
  | 39 => ⟨S8x36x65536, .i32⟩
  | 40 => ⟨S8x36x65536, .i32⟩
  | 41 => ⟨S8x36x50, .i32⟩
  | 42 => ⟨S8, .i32⟩
  | 43 => ⟨S8x1x1, .i32⟩
  | 44 => ⟨S_, .i32⟩
  | 45 => ⟨S8x1x1, .i32⟩
  | 46 => ⟨S8x1x1, .i1⟩
  | 47 => ⟨S_, .i32⟩
  | 48 => ⟨S8x1x1, .i32⟩
  | 49 => ⟨S8x1x1, .i32⟩
  | 50 => ⟨S8x1x1, .i32⟩
  | 51 => ⟨S_, .i32⟩
  | 52 => ⟨S8x36x50, .i32⟩
  | 53 => ⟨S8x36x50, .i1⟩
  | 54 => ⟨S_, .i32⟩
  | 55 => ⟨S8x36x50, .i32⟩
  | 56 => ⟨S8x36x50, .i32⟩
  | 57 => ⟨S8x36x50, .i32⟩
  | 58 => ⟨S8x36x50, .i32⟩
  | 59 => ⟨S8x36x50x1, .i32⟩
  | 60 => ⟨S8x36x50x1, .i32⟩
  | 61 => ⟨S8x36x50x2, .i32⟩
  | 62 => ⟨S8x36x50x32, .f32⟩
  | 63 => ⟨S50, .i32⟩
  | 64 => ⟨S1x1x50, .i32⟩
  | 65 => ⟨S8x36x1, .f32⟩
  | 66 => ⟨S1x1x50, .f32⟩
  | 67 => ⟨S8x36x50, .f32⟩
  | 68 => ⟨S8x36x50, .f32⟩
  | 69 => ⟨S8x36x50, .i1⟩
  | 70 => ⟨S8x1800x32, .f32⟩
  | 71 => ⟨S8x1800, .i1⟩
  | 72 => ⟨S8x1800, .f32⟩
  | 73 => ⟨S36x50, .i32⟩
  | 74 => ⟨S1800, .i32⟩
  | 75 => ⟨S8x1800x36, .f32⟩
  | 76 => ⟨S_, .f32⟩
  | 77 => ⟨S8x1800x36, .f32⟩
  | 78 => ⟨S8x1800x36, .f32⟩
  | 79 => ⟨S8x1x36, .i1⟩
  | 80 => ⟨S8x1x36, .f32⟩
  | 81 => ⟨S_, .f32⟩
  | 82 => ⟨S_, .f32⟩
  | 83 => ⟨S8x1800x36, .i1⟩
  | 84 => ⟨S8x1800x36, .f32⟩
  | 85 => ⟨S8x1800x36, .f32⟩
  | 86 => ⟨S_, .f32⟩
  | 87 => ⟨S8x1800, .f32⟩
  | 88 => ⟨S8x1800x1, .f32⟩
  | 89 => ⟨S8x1800x36, .f32⟩
  | 90 => ⟨S8x1800x36, .f32⟩
  | 91 => ⟨S1x1800x1, .i32⟩
  | 92 => ⟨S1x1x36, .i32⟩
  | 93 => ⟨S1x1800x36, .i32⟩
  | 94 => ⟨S1x1800x36, .i32⟩
  | 95 => ⟨S1x1800x36, .i1⟩
  | 96 => ⟨S1x1800x36, .f32⟩
  | 97 => ⟨S8x1800x36, .f32⟩
  | 98 => ⟨S8x1800x36, .f32⟩
  | 99 => ⟨S8x1800x36, .f32⟩
  | 100 => ⟨S8x1800x36, .f32⟩
  | 101 => ⟨S8x1800x36, .f32⟩
  | 102 => ⟨S8x1800x36, .f32⟩
  | 103 => ⟨S_, .f32⟩
  | 104 => ⟨S8x1800x36, .f32⟩
  | 105 => ⟨S8x1800x36, .f32⟩
  | 106 => ⟨S8x1800x36, .f32⟩
  | 107 => ⟨S_, .f32⟩
  | 108 => ⟨S8x1800, .f32⟩
  | 109 => ⟨S8x1800x1, .f32⟩
  | 110 => ⟨S8x1800x36, .f32⟩
  | 111 => ⟨S8x1800x36, .f32⟩
  | 112 => ⟨S8x1800x36, .f32⟩
  | 113 => ⟨S8x1800x36, .f32⟩
  | 114 => ⟨S8x1800x36, .f32⟩
  | 115 => ⟨S_, .f32⟩
  | 116 => ⟨S8x1800, .f32⟩
  | 117 => ⟨S_, .f32⟩
  | 118 => ⟨S8x1800, .f32⟩
  | 119 => ⟨S_, .f32⟩
  | 120 => ⟨S8x1800, .f32⟩
  | 121 => ⟨S8x1800, .f32⟩
  | 122 => ⟨S8x1800, .f32⟩
  | 123 => ⟨S_, .f32⟩
  | 124 => ⟨S8x1800, .f32⟩
  | 125 => ⟨S8x1800, .f32⟩
  | 126 => ⟨S8x1800, .f32⟩
  | 127 => ⟨S_, .f32⟩
  | _ => ⟨S8x32x256x256, .f32⟩

abbrev hbmTy0_1 (i : Nat) : BufTy := match i % 128 with
  | 0 => ⟨S8, .f32⟩
  | 1 => ⟨S_, .f32⟩
  | 2 => ⟨S8, .f32⟩
  | 3 => ⟨S_, .f32⟩
  | 4 => ⟨S8, .f32⟩
  | 5 => ⟨S8, .f32⟩
  | 6 => ⟨S8, .f32⟩
  | 7 => ⟨S_, .f32⟩
  | 8 => ⟨S_, .f32⟩
  | 9 => ⟨S_, .f32⟩
  | 10 => ⟨S_, .f32⟩
  | _ => ⟨S8x32x256x256, .f32⟩

abbrev hbmTy (i : Nat) : BufTy := match i / 128 with
  | 0 => hbmTy0_0 i
  | 1 => hbmTy0_1 i
  | _ => ⟨S8x32x256x256, .f32⟩

abbrev bufTy : (tb : Table) → Fin (tcTables nBuf tb) → BufTy
  | .hbm, ⟨i, _⟩ => hbmTy i
  | _, _ => ⟨S8x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_v29 : Ref sig .tc := ⟨.hbm, 37, rfl⟩
abbrev main_call1_v0 : Ref sig .tc := ⟨.hbm, 38, rfl⟩
abbrev main_call1_v1_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v66 : Ref sig .tc := ⟨.hbm, 85, rfl⟩
abbrev main_cst_8 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_9 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_10 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_11 : Ref sig .tc := ⟨.hbm, 115, rfl⟩
abbrev main_v93 : Ref sig .tc := ⟨.hbm, 116, rfl⟩
abbrev main_cst_12 : Ref sig .tc := ⟨.hbm, 117, rfl⟩
abbrev main_v94 : Ref sig .tc := ⟨.hbm, 118, rfl⟩
abbrev main_cst_13 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_14 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_15 : Ref sig .tc := ⟨.hbm, 127, rfl⟩
abbrev main_v101 : Ref sig .tc := ⟨.hbm, 128, rfl⟩
abbrev main_cst_16 : Ref sig .tc := ⟨.hbm, 129, rfl⟩
abbrev main_v102 : Ref sig .tc := ⟨.hbm, 130, rfl⟩
abbrev main_cst_17 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_18 : Ref sig .tc := ⟨.hbm, 135, rfl⟩
abbrev main_v106 : Ref sig .tc := ⟨.hbm, 136, rfl⟩
abbrev main_cst_19 : Ref sig .tc := ⟨.hbm, 137, rfl⟩
abbrev main_v107 : Ref sig .tc := ⟨.hbm, 138, rfl⟩

abbrev nD : Nat := 1
abbrev τ : Topo := Topo.v7x

variable {F : FTy → Type} [FloatOps F]

class Facts₀ : Prop where
  shapeCasts_S8x32x256x256_S8x32x65536 : S8x32x256x256.ShapeCasts S8x32x65536
  transposes_S8x32x65536_S8x65536x32_0_2_1 : S8x32x65536.Transposes [0, 2, 1] S8x65536x32
  shapeCasts_S8x256x256_S8x65536 : S8x256x256.ShapeCasts S8x65536
  bcast_S8x65536_S8x65536x1_0_1 : S8x65536.BroadcastsInDim S8x65536x1 (![0, 1] : Fin 2 → Fin S8x65536x1.rank)
  bcast_S36_S1x1x36_2 : S36.BroadcastsInDim S1x1x36 (![2] : Fin 1 → Fin S1x1x36.rank)
  bcast_S8x65536x1_S8x65536x36_0_1_2 : S8x65536x1.BroadcastsInDim S8x65536x36 (![0, 1, 2] : Fin 3 → Fin S8x65536x36.rank)
  bcast_S1x1x36_S8x65536x36_0_1_2 : S1x1x36.BroadcastsInDim S8x65536x36 (![0, 1, 2] : Fin 3 → Fin S8x65536x36.rank)
  reducesTo_S8x65536x36_S8x36_d1 : S8x65536x36.ReducesTo [1] S8x36
  h_S_ : 0 < S_.numel
  bcast_S_S8x36 : S_.BroadcastsInDim S8x36 (![] : Fin 0 → Fin S8x36.rank)
  bcast_S8x36_S8x36x1_0_1 : S8x36.BroadcastsInDim S8x36x1 (![0, 1] : Fin 2 → Fin S8x36x1.rank)
  bcast_S8x36x1_S8x36x32_0_1_2 : S8x36x1.BroadcastsInDim S8x36x32 (![0, 1, 2] : Fin 3 → Fin S8x36x32.rank)
  bcast_S8x65536_S8x1x65536_0_2 : S8x65536.BroadcastsInDim S8x1x65536 (![0, 2] : Fin 2 → Fin S8x1x65536.rank)
  bcast_S36_S1x36x1_1 : S36.BroadcastsInDim S1x36x1 (![1] : Fin 1 → Fin S1x36x1.rank)
  bcast_S8x1x65536_S8x36x65536_0_1_2 : S8x1x65536.BroadcastsInDim S8x36x65536 (![0, 1, 2] : Fin 3 → Fin S8x36x65536.rank)
  bcast_S1x36x1_S8x36x65536_0_1_2 : S1x36x1.BroadcastsInDim S8x36x65536 (![0, 1, 2] : Fin 3 → Fin S8x36x65536.rank)
  bcast_S65536_S1x1x65536_2 : S65536.BroadcastsInDim S1x1x65536 (![2] : Fin 1 → Fin S1x1x65536.rank)
  bcast_S_S1x1x65536 : S_.BroadcastsInDim S1x1x65536 (![] : Fin 0 → Fin S1x1x65536.rank)
  bcast_S1x1x65536_S8x36x65536_0_1_2 : S1x1x65536.BroadcastsInDim S8x36x65536 (![0, 1, 2] : Fin 3 → Fin S8x36x65536.rank)
  slices_S8x36x65536_S8x36x50_0_0_0 : S8x36x65536.Slices ![0, 0, 0] S8x36x50
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S8x36x50 : S_.BroadcastsInDim S8x36x50 (![] : Fin 0 → Fin S8x36x50.rank)
  bcast_S8x1x1_S8x36x50_0_1_2 : S8x1x1.BroadcastsInDim S8x36x50 (![0, 1, 2] : Fin 3 → Fin S8x36x50.rank)
  bcast_S8x36x50_S8x36x50x1_0_1_2 : S8x36x50.BroadcastsInDim S8x36x50x1 (![0, 1, 2] : Fin 3 → Fin S8x36x50x1.rank)
  concatenates_S8x36x50x1_S8x36x50x1_S8x36x50x2_d3 : Shape.Concatenates [S8x36x50x1, S8x36x50x1] S8x36x50x2 3
  bcast_S50_S1x1x50_2 : S50.BroadcastsInDim S1x1x50 (![2] : Fin 1 → Fin S1x1x50.rank)
  bcast_S1x1x50_S8x36x50_0_1_2 : S1x1x50.BroadcastsInDim S8x36x50 (![0, 1, 2] : Fin 3 → Fin S8x36x50.rank)
  bcast_S8x36x1_S8x36x50_0_1_2 : S8x36x1.BroadcastsInDim S8x36x50 (![0, 1, 2] : Fin 3 → Fin S8x36x50.rank)
  shapeCasts_S8x36x50x32_S8x1800x32 : S8x36x50x32.ShapeCasts S8x1800x32
  shapeCasts_S8x36x50_S8x1800 : S8x36x50.ShapeCasts S8x1800
  bcast_S36_S36x50_0 : S36.BroadcastsInDim S36x50 (![0] : Fin 1 → Fin S36x50.rank)
  shapeCasts_S36x50_S1800 : S36x50.ShapeCasts S1800
  bcast_S_S8x1800x36 : S_.BroadcastsInDim S8x1800x36 (![] : Fin 0 → Fin S8x1800x36.rank)
  bcast_S8x36_S8x1x36_0_2 : S8x36.BroadcastsInDim S8x1x36 (![0, 2] : Fin 2 → Fin S8x1x36.rank)
  bcast_S8x1x36_S8x1800x36_0_1_2 : S8x1x36.BroadcastsInDim S8x1800x36 (![0, 1, 2] : Fin 3 → Fin S8x1800x36.rank)
  reducesTo_S8x1800x36_S8x1800_d2 : S8x1800x36.ReducesTo [2] S8x1800
  bcast_S8x1800_S8x1800x1_0_1 : S8x1800.BroadcastsInDim S8x1800x1 (![0, 1] : Fin 2 → Fin S8x1800x1.rank)
  bcast_S8x1800x1_S8x1800x36_0_1_2 : S8x1800x1.BroadcastsInDim S8x1800x36 (![0, 1, 2] : Fin 3 → Fin S8x1800x36.rank)
  bcast_S1800_S1x1800x1_1 : S1800.BroadcastsInDim S1x1800x1 (![1] : Fin 1 → Fin S1x1800x1.rank)
  bcast_S1x1800x1_S1x1800x36_0_1_2 : S1x1800x1.BroadcastsInDim S1x1800x36 (![0, 1, 2] : Fin 3 → Fin S1x1800x36.rank)
  bcast_S1x1x36_S1x1800x36_0_1_2 : S1x1x36.BroadcastsInDim S1x1800x36 (![0, 1, 2] : Fin 3 → Fin S1x1800x36.rank)
  bcast_S1x1800x36_S8x1800x36_0_1_2 : S1x1800x36.BroadcastsInDim S8x1800x36 (![0, 1, 2] : Fin 3 → Fin S8x1800x36.rank)
  bcast_S_S8x1800 : S_.BroadcastsInDim S8x1800 (![] : Fin 0 → Fin S8x1800.rank)
  reducesTo_S8x1800_S8_d1 : S8x1800.ReducesTo [1] S8
  bcast_S_S8 : S_.BroadcastsInDim S8 (![] : Fin 0 → Fin S8.rank)
  reducesTo_S8_S_d0 : S8.ReducesTo [0] S_
  dot_S8x65536x36_S8x65536x32_S8x36x32_1_1_2_2_0_0_wf : DotDims.WF S8x65536x36 S8x65536x32 S8x36x32 [1] [1] [2] [2] [0] [0]
  gather_S8x65536x32_S8x36x50x2_S8x36x50x32_3_01_n_n_01_3_1132_wf : GatherDims.WF S8x65536x32 S8x36x50x2 S8x36x50x32 [3] [0, 1] [] [0, 1] [] 3 ![1, 1, 32]
  dot_S8x1800x32_S8x36x32_S8x1800x36_2_2_1_1_0_0_wf : DotDims.WF S8x1800x32 S8x36x32 S8x1800x36 [2] [2] [1] [1] [0] [0]

variable [Facts₀]

def dot_S8x65536x36_S8x65536x32_S8x36x32_1_1_2_2_0_0 : DotDims S8x65536x36 S8x65536x32 S8x36x32 where
  lhsContracting := [1]
  rhsContracting := [1]
  lhsNonContracting := [2]
  rhsNonContracting := [2]
  lhsBatch := [0]
  rhsBatch := [0]
  wf := dot_S8x65536x36_S8x65536x32_S8x36x32_1_1_2_2_0_0_wf
def comparator_i32_i32_d2 : BitVec 32 × BitVec 32 → BitVec 32 × BitVec 32 → BitVec 1 :=
  fun l r =>
    let v2 := IntOp.cmpi .slt l.1 r.1
    v2
def gather_S8x65536x32_S8x36x50x2_S8x36x50x32_3_01_n_n_01_3_1132 : GatherDims S8x65536x32 S8x36x50x2 S8x36x50x32 where
  offsetDims := [3]
  collapsedSliceDims := [0, 1]
  operandBatchingDims := []
  startIndicesBatchingDims := []
  startIndexMap := [0, 1]
  indexVectorDim := 3
  sliceSizes := ![1, 1, 32]
  wf := gather_S8x65536x32_S8x36x50x2_S8x36x50x32_3_01_n_n_01_3_1132_wf
def dot_S8x1800x32_S8x36x32_S8x1800x36_2_2_1_1_0_0 : DotDims S8x1800x32 S8x36x32 S8x1800x36 where
  lhsContracting := [2]
  rhsContracting := [2]
  lhsNonContracting := [1]
  rhsNonContracting := [1]
  lhsBatch := [0]
  rhsBatch := [0]
  wf := dot_S8x1800x32_S8x36x32_S8x1800x36_2_2_1_1_0_0_wf

class Facts : Prop extends Facts₀ where

variable [Facts]
-- ==== Proof.FrameK.Base.lean ====
import proofs.«422442_j10376640987314_2_alg».proof.Proof.Gen.Kernel.Launch
import proofs.«422442_j10376640987314_2_alg».proof.Proof.Gen.Kernel.Skeleton
import proofs.«422442_j10376640987314_2_alg».proof.Proof.Gen.Kernel.Points
import Idealize.ShloMosaic.Lib.Pipeline.FrameBody
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11]

end Cert.Kernel.Fr

end
-- ==== Proof.FrameK.Runs.lean ====
import proofs.«422442_j10376640987314_2_alg».proof.Proof.FrameK.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)

theorem sfx_fresh : ∀ ops ∈ (tailOps : List (List (HloOp τ sig (Elt F)))), ∀ op ∈ ops, op.fresh = ∅ := by
  intro ops hops
  simp only [tailOps, List.mem_cons, List.mem_nil_iff, or_false] at hops
  rcases hops with rfl | rfl | rfl | rfl | rfl | rfl | rfl | rfl | rfl | rfl | rfl | rfl <;> refine List.forall_iff_forall_mem.mp ?_ <;>
    (simp only [List.Forall]; repeat' constructor)

abbrev keepRefs : List (Ref sig .tc) := [main_v0, main_v2, main_v3_0, main_v3_1, main_arg0, main_arg1]

theorem keeps_of {x : Ref sig .tc} (h : ∀ b ∈ keepRefs, b ≠ x) :
    ∀ b ∈ keepRefs, ¬ Proc.devRef (τ := τ) .tc b = Proc.devRef .tc x :=
  fun b hb => StableHlo.devRef_ne_of_ne (h b hb)

/-- No operation after the region writes a window's array or an argument array. -/
theorem tail_keeps : ∀ ops ∈ (tailOps : List (List (HloOp τ sig (Elt F)))), ∀ op ∈ ops,
    ∀ b ∈ keepRefs, Proc.devRef .tc b ∉ op.writes := by
  intro ops hops
  simp only [tailOps, List.mem_cons, List.mem_nil_iff, or_false] at hops
  rcases hops with rfl | rfl | rfl | rfl | rfl | rfl | rfl | rfl | rfl | rfl | rfl | rfl <;> refine List.forall_iff_forall_mem.mp ?_ <;>
    (simp only [List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact keeps_of (by decide))

theorem arrRef_mem_keep : ∀ w : Fin cfg0.W, Pipeline.arrRef spec0 w ∈ keepRefs := by decide

theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arrRef_mem_keep w)

theorem tail_flat_keeps (b : Ref sig .tc) (hb : b ∈ keepRefs) :
    ∀ op ∈ (tailOps : List (List (HloOp τ sig (Elt F)))).flatten, Proc.devRef .tc b ∉ op.writes := by
  intro op hop
  obtain ⟨ops, hops, hop'⟩ := List.mem_flatten.mp hop
  exact tail_keeps ops hops op hop' b hb

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_flat_keeps main_arg0 (by decide)),
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_flat_keeps main_arg1 (by decide)),
    Pipeline.withArrays_of_ne _ c (V0 m c) _ main_arg1 (by exact (by decide : ∀ w, Pipeline.arrRef spec0 w ≠ main_arg1))]
  exact V_main_arg1 m c

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (W_main_arg0 m dats c),
     ((h c).2 main_arg1 (Pipeline.mem_restRefs_of main_arg1 rfl (by decide))).trans (W_main_arg1 m dats c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 2 = 0 :=
  (by decide +kernel : ∀ t : Fin grid0.N, cond0_0 (grid0.coords t) ↔ t.val % 2 = 0)

abbrev cond0_1 (i : grid0.Coords) : Prop := k0_cond2 i = 1#1

theorem hcond0_1 : ∀ t : Fin cfg0.N, cond0_1 (grid0.coords t) ↔ t.val % 2 = 1 :=
  (by decide +kernel : ∀ t : Fin grid0.N, cond0_1 (grid0.coords t) ↔ t.val % 2 = 1)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel

theorem liveAt0_2_B : ∀ t : Fin cfg0.N, ¬cond0_0 (grid0.coords t) → cond0_1 (grid0.coords t) → cfg0.idle 2 (grid0.coords t) = false := by decide +kernel

theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem liveAt0_3_B : ∀ t : Fin cfg0.N, ¬cond0_0 (grid0.coords t) → cond0_1 (grid0.coords t) → cfg0.idle 3 (grid0.coords t) = false := by decide +kernel

abbrev VO0_2 : View sig .tc .vmem S1x32x36 .f32 := (Memref.whole cc0_stg2_0 : Memref sig .tc .vmem S1x32x36 .f32).view
abbrev VO0_3 : View sig .tc .vmem S1x1x36 .f32 := (Memref.whole cc0_stg3_0 : Memref sig .tc .vmem S1x1x36 .f32).view

abbrev ms0_0 (t : Fin cfg0.N) : Memref sig .tc .vmem S1x32x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x36 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x36 .f32 := win0_3.stage (cfg0.slots t 3)
abbrev hs0_3 (t : Fin cfg0.N) : (ms0_3 t).IsWhole := hstage0_3 ((cfg0.slots t 3).cast nbuf0_3)

abbrev scM0_0 : Memref sig .tc .vmem S33x36 .f32 := Memref.whole cc0_scratch0

abbrev VS0_0 : View sig .tc .vmem S33x36 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.FrameK.RunA.lean ====
import proofs.«422442_j10376640987314_2_alg».proof.Proof.FrameK.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg2 : Memref sig .tc .vmem S1x32x32768 .f32) (harg2 : arg2.IsWhole) (arg3 : Memref sig .tc .vmem S1x1x32768 .i32) (harg3 : arg3.IsWhole) (arg4 : Memref sig .tc .vmem S1x32x36 .f32) (harg4 : arg4.IsWhole) (arg5 : Memref sig .tc .vmem S1x1x36 .f32) (harg5 : arg5.IsWhole) (arg6 : Memref sig .tc .vmem S33x36 .f32) (harg6 : arg6.IsWhole) (hc0 : cond0_0 i) (hc1 : ¬cond0_1 i)
    (x0 : Vec F S1x32x32768 .f32) (x1 : Vec F S1x1x32768 .i32) :
    Σ' (L2 : List (View.Piece (Elt F) S1x32x36 .f32)) (L3 : List (View.Piece (Elt F) S1x1x36 .f32)), { LS0 : List (View.Piece (Elt F) S33x36 .f32) //
      ∀ (xi2 : Vec F S1x32x36 .f32) (xi3 : Vec F S1x1x36 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__proto_kernel i arg2 harg2 arg3 harg3 arg4 harg4 arg5 harg5 arg6 harg6) K } := by
  refine ⟨[], [], ?_, fun xi2 xi3 E K => ?run⟩
  case run =>
    simp only [cc0__proto_kernel_eq_skeleton]; unfold cc0__proto_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.FrameK.RunB.lean ====
import proofs.«422442_j10376640987314_2_alg».proof.Proof.FrameK.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B (c : Dev nD) (i : grid0.Coords) (arg2 : Memref sig .tc .vmem S1x32x32768 .f32) (harg2 : arg2.IsWhole) (arg3 : Memref sig .tc .vmem S1x1x32768 .i32) (harg3 : arg3.IsWhole) (arg4 : Memref sig .tc .vmem S1x32x36 .f32) (harg4 : arg4.IsWhole) (arg5 : Memref sig .tc .vmem S1x1x36 .f32) (harg5 : arg5.IsWhole) (arg6 : Memref sig .tc .vmem S33x36 .f32) (harg6 : arg6.IsWhole) (hc0 : ¬cond0_0 i) (hc1 : cond0_1 i)
    (x0 : Vec F S1x32x32768 .f32) (x1 : Vec F S1x1x32768 .i32) (xs0 : Vec F S33x36 .f32) :
    Σ' (L2 : List (View.Piece (Elt F) S1x32x36 .f32)) (L3 : List (View.Piece (Elt F) S1x1x36 .f32)), { LS0 : List (View.Piece (Elt F) S33x36 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__proto_kernel i arg2 harg2 arg3 harg3 arg4 harg4 arg5 harg5 arg6 harg6) K } := by
  refine ⟨?_, ?_, ?_, fun E K => ?run⟩
  case run =>
    simp only [cc0__proto_kernel_eq_skeleton]; unfold cc0__proto_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Fr

end
-- ==== Proof.FrameK.Frame.lean ====
import proofs.«422442_j10376640987314_2_alg».proof.Proof.FrameK.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem c0_of_even (t : Fin cfg0.N) (h0 : t.val % 2 = 0) : cond0_0 (grid0.coords t) := (hcond0_0 t).mpr h0
theorem not_c1_of_even (t : Fin cfg0.N) (h0 : t.val % 2 = 0) : ¬cond0_1 (grid0.coords t) :=
  fun h => by have h1 := (hcond0_1 t).mp h; omega
theorem not_c0_of_odd (t : Fin cfg0.N) (h0 : ¬t.val % 2 = 0) : ¬cond0_0 (grid0.coords t) := fun h => h0 ((hcond0_0 t).mp h)
theorem c1_of_odd (t : Fin cfg0.N) (h0 : ¬t.val % 2 = 0) : cond0_1 (grid0.coords t) := (hcond0_1 t).mpr (by omega)

section Pieces

variable (c : Dev nD) (i : grid0.Coords) (arg2 : Memref sig .tc .vmem S1x32x32768 .f32) (harg2 : arg2.IsWhole) (arg3 : Memref sig .tc .vmem S1x1x32768 .i32) (harg3 : arg3.IsWhole) (arg4 : Memref sig .tc .vmem S1x32x36 .f32) (harg4 : arg4.IsWhole) (arg5 : Memref sig .tc .vmem S1x1x36 .f32) (harg5 : arg5.IsWhole) (arg6 : Memref sig .tc .vmem S33x36 .f32) (harg6 : arg6.IsWhole)

def out0_A_2 (hc0 : cond0_0 i) (hc1 : ¬cond0_1 i)
    (x0 : Vec F S1x32x32768 .f32) (x1 : Vec F S1x1x32768 .i32) : Vec F S1x32x36 .f32 :=
  VO0_2.read (Elt F) (VO0_2.writes (Elt F) VO0_2.junk (kernelRun0_A c i arg2 harg2 arg3 harg3 arg4 harg4 arg5 harg5 arg6 harg6 hc0 hc1 x0 x1).1)

def out0_A_3 (hc0 : cond0_0 i) (hc1 : ¬cond0_1 i)
    (x0 : Vec F S1x32x32768 .f32) (x1 : Vec F S1x1x32768 .i32) : Vec F S1x1x36 .f32 :=
  VO0_3.read (Elt F) (VO0_3.writes (Elt F) VO0_3.junk (kernelRun0_A c i arg2 harg2 arg3 harg3 arg4 harg4 arg5 harg5 arg6 harg6 hc0 hc1 x0 x1).2.1)

theorem scover0_A_0 (hc0 : cond0_0 i) (hc1 : ¬cond0_1 i)
    (x0 : Vec F S1x32x32768 .f32) (x1 : Vec F S1x1x32768 .i32) (y : S33x36.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S33x36.size (by sl_kernel_rfl) y

def sout0_A_0 (hc0 : cond0_0 i) (hc1 : ¬cond0_1 i)
    (x0 : Vec F S1x32x32768 .f32) (x1 : Vec F S1x1x32768 .i32) : Vec F S33x36 .f32 :=
  VS0_0.read (Elt F) (VS0_0.writes (Elt F) VS0_0.junk (kernelRun0_A c i arg2 harg2 arg3 harg3 arg4 harg4 arg5 harg5 arg6 harg6 hc0 hc1 x0 x1).2.2.1)

theorem cover0_B_2 (hc0 : ¬cond0_0 i) (hc1 : cond0_1 i)
    (x0 : Vec F S1x32x32768 .f32) (x1 : Vec F S1x1x32768 .i32) (xs0 : Vec F S33x36 .f32) (y : S1x32x36.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S1x32x36.size (by sl_kernel_rfl) y

def out0_B_2 (hc0 : ¬cond0_0 i) (hc1 : cond0_1 i)
    (x0 : Vec F S1x32x32768 .f32) (x1 : Vec F S1x1x32768 .i32) (xs0 : Vec F S33x36 .f32) : Vec F S1x32x36 .f32 :=
  VO0_2.read (Elt F) (VO0_2.writes (Elt F) VO0_2.junk (kernelRun0_B c i arg2 harg2 arg3 harg3 arg4 harg4 arg5 harg5 arg6 harg6 hc0 hc1 x0 x1 xs0).1)

theorem cover0_B_3 (hc0 : ¬cond0_0 i) (hc1 : cond0_1 i)
    (x0 : Vec F S1x32x32768 .f32) (x1 : Vec F S1x1x32768 .i32) (xs0 : Vec F S33x36 .f32) (y : S1x1x36.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S1x1x36.size (by sl_kernel_rfl) y

def out0_B_3 (hc0 : ¬cond0_0 i) (hc1 : cond0_1 i)
    (x0 : Vec F S1x32x32768 .f32) (x1 : Vec F S1x1x32768 .i32) (xs0 : Vec F S33x36 .f32) : Vec F S1x1x36 .f32 :=
  VO0_3.read (Elt F) (VO0_3.writes (Elt F) VO0_3.junk (kernelRun0_B c i arg2 harg2 arg3 harg3 arg4 harg4 arg5 harg5 arg6 harg6 hc0 hc1 x0 x1 xs0).2.1)

theorem scover0_B_0 (hc0 : ¬cond0_0 i) (hc1 : cond0_1 i)
    (x0 : Vec F S1x32x32768 .f32) (x1 : Vec F S1x1x32768 .i32) (xs0 : Vec F S33x36 .f32) (y : S33x36.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S33x36.size (by sl_kernel_rfl) y

def sout0_B_0 (hc0 : ¬cond0_0 i) (hc1 : cond0_1 i)
    (x0 : Vec F S1x32x32768 .f32) (x1 : Vec F S1x1x32768 .i32) (xs0 : Vec F S33x36 .f32) : Vec F S33x36 .f32 :=
  VS0_0.read (Elt F) (VS0_0.writes (Elt F) VS0_0.junk (kernelRun0_B c i arg2 harg2 arg3 harg3 arg4 harg4 arg5 harg5 arg6 harg6 hc0 hc1 x0 x1 xs0).2.2.1)

end Pieces

def outsAt0 (c : Dev nD) : (n : ℕ) → n < cfg0.N → Vec F S1x32x36 .f32 × Vec F S1x1x36 .f32 × Vec F S33x36 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of_even ⟨0, hn⟩ (Nat.zero_mod _)) (not_c1_of_even ⟨0, hn⟩ (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of_even ⟨0, hn⟩ (Nat.zero_mod _)) (not_c1_of_even ⟨0, hn⟩ (Nat.zero_mod _)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of_even ⟨0, hn⟩ (Nat.zero_mod _)) (not_c1_of_even ⟨0, hn⟩ (Nat.zero_mod _)) (iblk m c 0 ⟨0, hn⟩) (iblk m c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of_even ⟨n + 1, hn⟩ h0) (not_c1_of_even ⟨n + 1, hn⟩ h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of_even ⟨n + 1, hn⟩ h0) (not_c1_of_even ⟨n + 1, hn⟩ h0) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of_even ⟨n + 1, hn⟩ h0) (not_c1_of_even ⟨n + 1, hn⟩ h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of_odd ⟨n + 1, hn⟩ h0) (c1_of_odd ⟨n + 1, hn⟩ h0) (iblk m c 0 ⟨n + 1, hn⟩) (iblk m c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of_odd ⟨n + 1, hn⟩ h0) (c1_of_odd ⟨n + 1, hn⟩ h0) (iblk m c 0 ⟨n + 1, hn⟩) (iblk m c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of_odd ⟨n + 1, hn⟩ h0) (c1_of_odd ⟨n + 1, hn⟩ h0) (iblk m c 0 ⟨n + 1, hn⟩) (iblk m c 1 ⟨n + 1, hn⟩) (outsAt0 c n (Nat.lt_of_succ_lt hn)).2.2)

theorem outsAt0_A (c : Dev nD) (t : Fin cfg0.N) (h0 : t.val % 2 = 0) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) (c0_of_even t h0) (not_c1_of_even t h0) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) (c0_of_even t h0) (not_c1_of_even t h0) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) (c0_of_even t h0) (not_c1_of_even t h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) (not_c0_of_odd t h0) (c1_of_odd t h0) (iblk m c 0 t) (iblk m c 1 t) (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (not_c0_of_odd t h0) (c1_of_odd t h0) (iblk m c 0 t) (iblk m c 1 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (not_c0_of_odd t h0) (c1_of_odd t h0) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · rw [Dat.leavesExact_idle (dats m 0 c) 2 t (idleAt0_2_A t (c0_of_even t h0) (not_c1_of_even t h0)) (noFlush0_2_A t (c0_of_even t h0) (not_c1_of_even t h0))]
    rw [Dat.leavesExact_idle (dats m 0 c) 3 t (idleAt0_3_A t (c0_of_even t h0) (not_c1_of_even t h0)) (noFlush0_3_A t (c0_of_even t h0) (not_c1_of_even t h0))]
    rw [outsAt0_A m c t h0]
    unfold sout0_A_0; (try dsimp only)
    rw [PhiS_castSucc m c t]
    by_cases hz : t.val = 0
    on_goal 1 => rw [PhiS_zero m c _ _ hz, PhiA0_eq]
    on_goal 2 => rw [PhiS_pos m c _ _ hz]
    all_goals
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ (c0_of_even t h0) (not_c1_of_even t h0) (iblk m c 0 t) (iblk m c 1 t)).2.2.2 _ _ Set.univ _)
      isplitl [H0]; · iexact H0
      isplitl [H1]; · iexact H1
      isplitl [H2]; · iexact H2
      isplitl [H3]; · iexact H3
      isplitl [HS0]; · first | iexact HS0 | (iexists _; iexact HS0)
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
  · rw [show (dats m 0 c).leavesExact 2 t = owns (c : Thread nD τ) (ms0_2 t) fullShare ((dats m 0 c).after 2 t) from by
      unfold Dat.leavesExact; rw [liveAt0_2_B t (not_c0_of_odd t h0) (c1_of_odd t h0)], after0_2]
    rw [show (dats m 0 c).leavesExact 3 t = owns (c : Thread nD τ) (ms0_3 t) fullShare ((dats m 0 c).after 3 t) from by
      unfold Dat.leavesExact; rw [liveAt0_3_B t (not_c0_of_odd t h0) (c1_of_odd t h0)], after0_3]
    rw [outsAt0_B m c t h0]
    unfold out0_B_2 out0_B_3 sout0_B_0; (try dsimp only)
    have hz : t.val ≠ 0 := fun hz => h0 (by rw [hz])
    rw [PhiS_castSucc m c t, PhiS_pos m c _ _ hz]
    iintro ⟨⟨HS0, Hg⟩, Ho, ⟨%d0, H0⟩, ⟨%d1, H1⟩, ⟨%d2, H2⟩, ⟨%d3, H3⟩⟩
    iapply ((kernelRun0_B c (grid0.coords t) _ _ _ _ _ _ _ _ _ _ (not_c0_of_odd t h0) (c1_of_odd t h0) (iblk m c 0 t) (iblk m c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in

theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- Every weakly fair execution of the program terminates without a fault, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.FrameKI.Base.lean ====
import proofs.«422442_j10376640987314_2_alg».proof.Proof.Gen.KernelIdeal.Launch
import proofs.«422442_j10376640987314_2_alg».proof.Proof.Gen.KernelIdeal.Skeleton
import proofs.«422442_j10376640987314_2_alg».proof.Proof.Gen.KernelIdeal.Points
import Idealize.ShloMosaic.Lib.Pipeline.FrameBody
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11]

end Cert.KernelIdeal.Fr

end
-- ==== Proof.FrameKI.Runs.lean ====
import proofs.«422442_j10376640987314_2_alg».proof.Proof.FrameKI.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)

theorem sfx_fresh : ∀ ops ∈ (tailOps : List (List (HloOp τ sig (Elt F)))), ∀ op ∈ ops, op.fresh = ∅ := by
  intro ops hops
  simp only [tailOps, List.mem_cons, List.mem_nil_iff, or_false] at hops
  rcases hops with rfl | rfl | rfl | rfl | rfl | rfl | rfl | rfl | rfl | rfl | rfl | rfl <;> refine List.forall_iff_forall_mem.mp ?_ <;>
    (simp only [List.Forall]; repeat' constructor)

abbrev keepRefs : List (Ref sig .tc) := [main_v0, main_v2, main_v3_0, main_v3_1, main_arg0, main_arg1]

theorem keeps_of {x : Ref sig .tc} (h : ∀ b ∈ keepRefs, b ≠ x) :
    ∀ b ∈ keepRefs, ¬ Proc.devRef (τ := τ) .tc b = Proc.devRef .tc x :=
  fun b hb => StableHlo.devRef_ne_of_ne (h b hb)

/-- No operation after the region writes a window's array or an argument array. -/
theorem tail_keeps : ∀ ops ∈ (tailOps : List (List (HloOp τ sig (Elt F)))), ∀ op ∈ ops,
    ∀ b ∈ keepRefs, Proc.devRef .tc b ∉ op.writes := by
  intro ops hops
  simp only [tailOps, List.mem_cons, List.mem_nil_iff, or_false] at hops
  rcases hops with rfl | rfl | rfl | rfl | rfl | rfl | rfl | rfl | rfl | rfl | rfl | rfl <;> refine List.forall_iff_forall_mem.mp ?_ <;>
    (simp only [List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact keeps_of (by decide))

theorem arrRef_mem_keep : ∀ w : Fin cfg0.W, Pipeline.arrRef spec0 w ∈ keepRefs := by decide

theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arrRef_mem_keep w)

theorem tail_flat_keeps (b : Ref sig .tc) (hb : b ∈ keepRefs) :
    ∀ op ∈ (tailOps : List (List (HloOp τ sig (Elt F)))).flatten, Proc.devRef .tc b ∉ op.writes := by
  intro op hop
  obtain ⟨ops, hops, hop'⟩ := List.mem_flatten.mp hop
  exact tail_keeps ops hops op hop' b hb

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_flat_keeps main_arg0 (by decide)),
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_flat_keeps main_arg1 (by decide)),
    Pipeline.withArrays_of_ne _ c (V0 m c) _ main_arg1 (by exact (by decide : ∀ w, Pipeline.arrRef spec0 w ≠ main_arg1))]
  exact V_main_arg1 m c

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (W_main_arg0 m dats c),
     ((h c).2 main_arg1 (Pipeline.mem_restRefs_of main_arg1 rfl (by decide))).trans (W_main_arg1 m dats c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 2 = 0 :=
  (by decide +kernel : ∀ t : Fin grid0.N, cond0_0 (grid0.coords t) ↔ t.val % 2 = 0)

abbrev cond0_1 (i : grid0.Coords) : Prop := k0_cond2 i = 1#1

theorem hcond0_1 : ∀ t : Fin cfg0.N, cond0_1 (grid0.coords t) ↔ t.val % 2 = 1 :=
  (by decide +kernel : ∀ t : Fin grid0.N, cond0_1 (grid0.coords t) ↔ t.val % 2 = 1)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel

theorem liveAt0_2_B : ∀ t : Fin cfg0.N, ¬cond0_0 (grid0.coords t) → cond0_1 (grid0.coords t) → cfg0.idle 2 (grid0.coords t) = false := by decide +kernel

theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem liveAt0_3_B : ∀ t : Fin cfg0.N, ¬cond0_0 (grid0.coords t) → cond0_1 (grid0.coords t) → cfg0.idle 3 (grid0.coords t) = false := by decide +kernel

abbrev VO0_2 : View sig .tc .vmem S1x32x36 .f32 := (Memref.whole cc0_stg2_0 : Memref sig .tc .vmem S1x32x36 .f32).view
abbrev VO0_3 : View sig .tc .vmem S1x1x36 .f32 := (Memref.whole cc0_stg3_0 : Memref sig .tc .vmem S1x1x36 .f32).view

abbrev ms0_0 (t : Fin cfg0.N) : Memref sig .tc .vmem S1x32x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x36 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x36 .f32 := win0_3.stage (cfg0.slots t 3)
abbrev hs0_3 (t : Fin cfg0.N) : (ms0_3 t).IsWhole := hstage0_3 ((cfg0.slots t 3).cast nbuf0_3)

abbrev scM0_0 : Memref sig .tc .vmem S33x36 .f32 := Memref.whole cc0_scratch0

abbrev VS0_0 : View sig .tc .vmem S33x36 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrameKI.RunA.lean ====
import proofs.«422442_j10376640987314_2_alg».proof.Proof.FrameKI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg2 : Memref sig .tc .vmem S1x32x32768 .f32) (harg2 : arg2.IsWhole) (arg3 : Memref sig .tc .vmem S1x1x32768 .i32) (harg3 : arg3.IsWhole) (arg4 : Memref sig .tc .vmem S1x32x36 .f32) (harg4 : arg4.IsWhole) (arg5 : Memref sig .tc .vmem S1x1x36 .f32) (harg5 : arg5.IsWhole) (arg6 : Memref sig .tc .vmem S33x36 .f32) (harg6 : arg6.IsWhole) (hc0 : cond0_0 i) (hc1 : ¬cond0_1 i)
    (x0 : Vec F S1x32x32768 .f32) (x1 : Vec F S1x1x32768 .i32) :
    Σ' (L2 : List (View.Piece (Elt F) S1x32x36 .f32)) (L3 : List (View.Piece (Elt F) S1x1x36 .f32)), { LS0 : List (View.Piece (Elt F) S33x36 .f32) //
      ∀ (xi2 : Vec F S1x32x36 .f32) (xi3 : Vec F S1x1x36 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__proto_kernel i arg2 harg2 arg3 harg3 arg4 harg4 arg5 harg5 arg6 harg6) K } := by
  refine ⟨[], [], ?_, fun xi2 xi3 E K => ?run⟩
  case run =>
    simp only [cc0__proto_kernel_eq_skeleton]; unfold cc0__proto_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.FrameKI.RunB.lean ====
import proofs.«422442_j10376640987314_2_alg».proof.Proof.FrameKI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B (c : Dev nD) (i : grid0.Coords) (arg2 : Memref sig .tc .vmem S1x32x32768 .f32) (harg2 : arg2.IsWhole) (arg3 : Memref sig .tc .vmem S1x1x32768 .i32) (harg3 : arg3.IsWhole) (arg4 : Memref sig .tc .vmem S1x32x36 .f32) (harg4 : arg4.IsWhole) (arg5 : Memref sig .tc .vmem S1x1x36 .f32) (harg5 : arg5.IsWhole) (arg6 : Memref sig .tc .vmem S33x36 .f32) (harg6 : arg6.IsWhole) (hc0 : ¬cond0_0 i) (hc1 : cond0_1 i)
    (x0 : Vec F S1x32x32768 .f32) (x1 : Vec F S1x1x32768 .i32) (xs0 : Vec F S33x36 .f32) :
    Σ' (L2 : List (View.Piece (Elt F) S1x32x36 .f32)) (L3 : List (View.Piece (Elt F) S1x1x36 .f32)), { LS0 : List (View.Piece (Elt F) S33x36 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__proto_kernel i arg2 harg2 arg3 harg3 arg4 harg4 arg5 harg5 arg6 harg6) K } := by
  refine ⟨?_, ?_, ?_, fun E K => ?run⟩
  case run =>
    simp only [cc0__proto_kernel_eq_skeleton]; unfold cc0__proto_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Fr

end
-- ==== Proof.FrameKI.Frame.lean ====
import proofs.«422442_j10376640987314_2_alg».proof.Proof.FrameKI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem c0_of_even (t : Fin cfg0.N) (h0 : t.val % 2 = 0) : cond0_0 (grid0.coords t) := (hcond0_0 t).mpr h0
theorem not_c1_of_even (t : Fin cfg0.N) (h0 : t.val % 2 = 0) : ¬cond0_1 (grid0.coords t) :=
  fun h => by have h1 := (hcond0_1 t).mp h; omega
theorem not_c0_of_odd (t : Fin cfg0.N) (h0 : ¬t.val % 2 = 0) : ¬cond0_0 (grid0.coords t) := fun h => h0 ((hcond0_0 t).mp h)
theorem c1_of_odd (t : Fin cfg0.N) (h0 : ¬t.val % 2 = 0) : cond0_1 (grid0.coords t) := (hcond0_1 t).mpr (by omega)

section Pieces

variable (c : Dev nD) (i : grid0.Coords) (arg2 : Memref sig .tc .vmem S1x32x32768 .f32) (harg2 : arg2.IsWhole) (arg3 : Memref sig .tc .vmem S1x1x32768 .i32) (harg3 : arg3.IsWhole) (arg4 : Memref sig .tc .vmem S1x32x36 .f32) (harg4 : arg4.IsWhole) (arg5 : Memref sig .tc .vmem S1x1x36 .f32) (harg5 : arg5.IsWhole) (arg6 : Memref sig .tc .vmem S33x36 .f32) (harg6 : arg6.IsWhole)

def out0_A_2 (hc0 : cond0_0 i) (hc1 : ¬cond0_1 i)
    (x0 : Vec F S1x32x32768 .f32) (x1 : Vec F S1x1x32768 .i32) : Vec F S1x32x36 .f32 :=
  VO0_2.read (Elt F) (VO0_2.writes (Elt F) VO0_2.junk (kernelRun0_A c i arg2 harg2 arg3 harg3 arg4 harg4 arg5 harg5 arg6 harg6 hc0 hc1 x0 x1).1)

def out0_A_3 (hc0 : cond0_0 i) (hc1 : ¬cond0_1 i)
    (x0 : Vec F S1x32x32768 .f32) (x1 : Vec F S1x1x32768 .i32) : Vec F S1x1x36 .f32 :=
  VO0_3.read (Elt F) (VO0_3.writes (Elt F) VO0_3.junk (kernelRun0_A c i arg2 harg2 arg3 harg3 arg4 harg4 arg5 harg5 arg6 harg6 hc0 hc1 x0 x1).2.1)

theorem scover0_A_0 (hc0 : cond0_0 i) (hc1 : ¬cond0_1 i)
    (x0 : Vec F S1x32x32768 .f32) (x1 : Vec F S1x1x32768 .i32) (y : S33x36.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S33x36.size (by sl_kernel_rfl) y

def sout0_A_0 (hc0 : cond0_0 i) (hc1 : ¬cond0_1 i)
    (x0 : Vec F S1x32x32768 .f32) (x1 : Vec F S1x1x32768 .i32) : Vec F S33x36 .f32 :=
  VS0_0.read (Elt F) (VS0_0.writes (Elt F) VS0_0.junk (kernelRun0_A c i arg2 harg2 arg3 harg3 arg4 harg4 arg5 harg5 arg6 harg6 hc0 hc1 x0 x1).2.2.1)

theorem cover0_B_2 (hc0 : ¬cond0_0 i) (hc1 : cond0_1 i)
    (x0 : Vec F S1x32x32768 .f32) (x1 : Vec F S1x1x32768 .i32) (xs0 : Vec F S33x36 .f32) (y : S1x32x36.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S1x32x36.size (by sl_kernel_rfl) y

def out0_B_2 (hc0 : ¬cond0_0 i) (hc1 : cond0_1 i)
    (x0 : Vec F S1x32x32768 .f32) (x1 : Vec F S1x1x32768 .i32) (xs0 : Vec F S33x36 .f32) : Vec F S1x32x36 .f32 :=
  VO0_2.read (Elt F) (VO0_2.writes (Elt F) VO0_2.junk (kernelRun0_B c i arg2 harg2 arg3 harg3 arg4 harg4 arg5 harg5 arg6 harg6 hc0 hc1 x0 x1 xs0).1)

theorem cover0_B_3 (hc0 : ¬cond0_0 i) (hc1 : cond0_1 i)
    (x0 : Vec F S1x32x32768 .f32) (x1 : Vec F S1x1x32768 .i32) (xs0 : Vec F S33x36 .f32) (y : S1x1x36.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S1x1x36.size (by sl_kernel_rfl) y

def out0_B_3 (hc0 : ¬cond0_0 i) (hc1 : cond0_1 i)
    (x0 : Vec F S1x32x32768 .f32) (x1 : Vec F S1x1x32768 .i32) (xs0 : Vec F S33x36 .f32) : Vec F S1x1x36 .f32 :=
  VO0_3.read (Elt F) (VO0_3.writes (Elt F) VO0_3.junk (kernelRun0_B c i arg2 harg2 arg3 harg3 arg4 harg4 arg5 harg5 arg6 harg6 hc0 hc1 x0 x1 xs0).2.1)

theorem scover0_B_0 (hc0 : ¬cond0_0 i) (hc1 : cond0_1 i)
    (x0 : Vec F S1x32x32768 .f32) (x1 : Vec F S1x1x32768 .i32) (xs0 : Vec F S33x36 .f32) (y : S33x36.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S33x36.size (by sl_kernel_rfl) y

def sout0_B_0 (hc0 : ¬cond0_0 i) (hc1 : cond0_1 i)
    (x0 : Vec F S1x32x32768 .f32) (x1 : Vec F S1x1x32768 .i32) (xs0 : Vec F S33x36 .f32) : Vec F S33x36 .f32 :=
  VS0_0.read (Elt F) (VS0_0.writes (Elt F) VS0_0.junk (kernelRun0_B c i arg2 harg2 arg3 harg3 arg4 harg4 arg5 harg5 arg6 harg6 hc0 hc1 x0 x1 xs0).2.2.1)

end Pieces

def outsAt0 (c : Dev nD) : (n : ℕ) → n < cfg0.N → Vec F S1x32x36 .f32 × Vec F S1x1x36 .f32 × Vec F S33x36 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of_even ⟨0, hn⟩ (Nat.zero_mod _)) (not_c1_of_even ⟨0, hn⟩ (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of_even ⟨0, hn⟩ (Nat.zero_mod _)) (not_c1_of_even ⟨0, hn⟩ (Nat.zero_mod _)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of_even ⟨0, hn⟩ (Nat.zero_mod _)) (not_c1_of_even ⟨0, hn⟩ (Nat.zero_mod _)) (iblk m c 0 ⟨0, hn⟩) (iblk m c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of_even ⟨n + 1, hn⟩ h0) (not_c1_of_even ⟨n + 1, hn⟩ h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of_even ⟨n + 1, hn⟩ h0) (not_c1_of_even ⟨n + 1, hn⟩ h0) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of_even ⟨n + 1, hn⟩ h0) (not_c1_of_even ⟨n + 1, hn⟩ h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of_odd ⟨n + 1, hn⟩ h0) (c1_of_odd ⟨n + 1, hn⟩ h0) (iblk m c 0 ⟨n + 1, hn⟩) (iblk m c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of_odd ⟨n + 1, hn⟩ h0) (c1_of_odd ⟨n + 1, hn⟩ h0) (iblk m c 0 ⟨n + 1, hn⟩) (iblk m c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_c0_of_odd ⟨n + 1, hn⟩ h0) (c1_of_odd ⟨n + 1, hn⟩ h0) (iblk m c 0 ⟨n + 1, hn⟩) (iblk m c 1 ⟨n + 1, hn⟩) (outsAt0 c n (Nat.lt_of_succ_lt hn)).2.2)

theorem outsAt0_A (c : Dev nD) (t : Fin cfg0.N) (h0 : t.val % 2 = 0) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) (c0_of_even t h0) (not_c1_of_even t h0) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) (c0_of_even t h0) (not_c1_of_even t h0) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) (c0_of_even t h0) (not_c1_of_even t h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) (not_c0_of_odd t h0) (c1_of_odd t h0) (iblk m c 0 t) (iblk m c 1 t) (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (not_c0_of_odd t h0) (c1_of_odd t h0) (iblk m c 0 t) (iblk m c 1 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (not_c0_of_odd t h0) (c1_of_odd t h0) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · rw [Dat.leavesExact_idle (dats m 0 c) 2 t (idleAt0_2_A t (c0_of_even t h0) (not_c1_of_even t h0)) (noFlush0_2_A t (c0_of_even t h0) (not_c1_of_even t h0))]
    rw [Dat.leavesExact_idle (dats m 0 c) 3 t (idleAt0_3_A t (c0_of_even t h0) (not_c1_of_even t h0)) (noFlush0_3_A t (c0_of_even t h0) (not_c1_of_even t h0))]
    rw [outsAt0_A m c t h0]
    unfold sout0_A_0; (try dsimp only)
    rw [PhiS_castSucc m c t]
    by_cases hz : t.val = 0
    on_goal 1 => rw [PhiS_zero m c _ _ hz, PhiA0_eq]
    on_goal 2 => rw [PhiS_pos m c _ _ hz]
    all_goals
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ (c0_of_even t h0) (not_c1_of_even t h0) (iblk m c 0 t) (iblk m c 1 t)).2.2.2 _ _ Set.univ _)
      isplitl [H0]; · iexact H0
      isplitl [H1]; · iexact H1
      isplitl [H2]; · iexact H2
      isplitl [H3]; · iexact H3
      isplitl [HS0]; · first | iexact HS0 | (iexists _; iexact HS0)
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3
  · rw [show (dats m 0 c).leavesExact 2 t = owns (c : Thread nD τ) (ms0_2 t) fullShare ((dats m 0 c).after 2 t) from by
      unfold Dat.leavesExact; rw [liveAt0_2_B t (not_c0_of_odd t h0) (c1_of_odd t h0)], after0_2]
    rw [show (dats m 0 c).leavesExact 3 t = owns (c : Thread nD τ) (ms0_3 t) fullShare ((dats m 0 c).after 3 t) from by
      unfold Dat.leavesExact; rw [liveAt0_3_B t (not_c0_of_odd t h0) (c1_of_odd t h0)], after0_3]
    rw [outsAt0_B m c t h0]
    unfold out0_B_2 out0_B_3 sout0_B_0; (try dsimp only)
    have hz : t.val ≠ 0 := fun hz => h0 (by rw [hz])
    rw [PhiS_castSucc m c t, PhiS_pos m c _ _ hz]
    iintro ⟨⟨HS0, Hg⟩, Ho, ⟨%d0, H0⟩, ⟨%d1, H1⟩, ⟨%d2, H2⟩, ⟨%d3, H3⟩⟩
    iapply ((kernelRun0_B c (grid0.coords t) _ _ _ _ _ _ _ _ _ _ (not_c0_of_odd t h0) (c1_of_odd t h0) (iblk m c 0 t) (iblk m c 1 t) _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in

theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- Every weakly fair execution of the program terminates without a fault, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.KStages.lean ====
import proofs.«422442_j10376640987314_2_alg».proof.Proof.Gen.KernelIdeal

noncomputable section

namespace Cert.KStage

open Idealize.ShloMosaic Cert.KernelIdeal Cert.KernelIdeal.Gen

variable {F : FTy → Type} [FloatOps F]

def cnt2 (cnt : FVec F S8x1x36 .f32) : FVec F S8x36 .f32 := shapeCast _ cnt shapeCasts_S8x1x36_S8x36

def segT (seg : FVec F S8x32x36 .f32) : FVec F S8x36x32 .f32 := transpose S8x36x32 [0, 2, 1] seg transposes_S8x32x36_S8x36x32_0_2_1

def countsI (cnt : FVec F S8x1x36 .f32) : IVec S8x36 32 := fptosi 32 (Host.roundeven (cnt2 cnt))

def valid (ci : IVec S8x36 32) : IVec S8x36 1 := cmpi .sgt ci (broadcastInDim S8x36 ![] bcast_S_S8x36 (constantI S_ 32 0#32))

def keys (lblr : IVec S8x65536 32) : IVec S8x65536 32 :=
  addi (muli lblr (broadcastInDim S8x65536 ![] bcast_S_S8x65536 (constantI S_ 32 65536#32))) (iotaInDim S8x65536 32 1)

def sortedIdx (lblr : IVec S8x65536 32) : IVec S8x65536 32 :=
  (Host.sort2 S8x65536 1 comparator_i32_i32_d1 (keys lblr) (iotaInDim S8x65536 32 1)).2

def cums (ci : IVec S8x36 32) : IVec S8x36 32 :=
  Host.reduceWindow IntOp.addi ![1, 36] ![1, 1] ![0, 35] ![0, 0] ci (broadcastInDim S_ ![] bcast_S_S_ (constantI S_ 32 0#32)) reduceWindows_S8x36_S8x36_w1s1p0_0_w36s1p35_0 h_S_

def offset (ci : IVec S8x36 32) : IVec S8x36 32 := subi (cums ci) ci

def idxFlat (ci : IVec S8x36 32) : IVec S8x1800 32 :=
  let v20 : IVec S8x36x50 32 := broadcastInDim S8x36x50 ![0, 1, 2] bcast_S8x36x1_S8x36x50_0_1_2 (broadcastInDim S8x36x1 ![0, 1] bcast_S8x36_S8x36x1_0_1 (offset ci))
  let v21 : IVec S8x36x50 32 := broadcastInDim S8x36x50 ![0, 1, 2] bcast_S1x1x50_S8x36x50_0_1_2 (broadcastInDim S1x1x50 ![2] bcast_S50_S1x1x50_2 (iotaInDim S50 32 0))
  shapeCast _ (minsi (addi v20 v21) (broadcastInDim S8x36x50 ![] bcast_S_S8x36x50 (constantI S_ 32 65535#32))) shapeCasts_S8x36x50_S8x1800

def takeI (arr : IVec S8x65536 32) (idx : IVec S8x1800 32) : IVec S8x1800 32 :=
  let v1 : IVec S8x1800 1 := cmpi .slt idx (broadcastInDim S8x1800 ![] bcast_S_S8x1800 (constantI S_ 32 0#32))
  let v3 : IVec S8x1800 32 := addi idx (broadcastInDim S8x1800 ![] bcast_S_S8x1800 (constantI S_ 32 65536#32))
  let v4 : IVec S8x1800 32 := select v1 v3 idx
  let v5 : IVec S8x1800x1 32 := shapeCast _ v4 shapeCasts_S8x1800_S8x1800x1
  let v7 : IVec S8x1800x1 1 := cmpi .sge v5 (broadcastInDim S8x1800x1 ![] bcast_S_S8x1800x1 (constantI S_ 32 0#32))
  let v9 : IVec S8x1800x1 32 := broadcastInDim S8x1800x1 ![0, 1, 2] bcast_S1x1x1_S8x1800x1_0_1_2 (broadcastInDim S1x1x1 ![2] bcast_S1_S1x1x1_2 (constantI S1 32 65535#32))
  let v10 : IVec S8x1800x1 1 := cmpi .sle v5 v9
  let v12 : IVec S8x1800 1 := Host.reduce IntOp.andi (andi v7 v10) (constantI S_ 1 1#1) reducesTo_S8x1800x1_S8x1800_d2 h_S_
  let v13 : IVec S8x1800 32 := Host.gather gather_S8x65536_S8x1800x1_S8x1800_n_1_0_0_1_2_11 arr v5
  select v12 v13 (broadcastInDim S8x1800 ![] bcast_S_S8x1800 (constantI S_ 32 2147483648#32))

def position (lblr : IVec S8x65536 32) (ci : IVec S8x36 32) : IVec S8x1800 32 := takeI (sortedIdx lblr) (idxFlat ci)

def takeF (embr : FVec F S8x32x65536 .f32) (idx : IVec S8x32x1800 32) : FVec F S8x32x1800 .f32 :=
  let v1 : IVec S8x32x1800 1 := cmpi .slt idx (broadcastInDim S8x32x1800 ![] bcast_S_S8x32x1800 (constantI S_ 32 0#32))
  let v3 : IVec S8x32x1800 32 := addi idx (broadcastInDim S8x32x1800 ![] bcast_S_S8x32x1800 (constantI S_ 32 65536#32))
  let v4 : IVec S8x32x1800 32 := select v1 v3 idx
  let v5 : IVec S8x32x1800x1 32 := shapeCast _ v4 shapeCasts_S8x32x1800_S8x32x1800x1
  let v7 : IVec S8x32x1800x1 1 := cmpi .sge v5 (broadcastInDim S8x32x1800x1 ![] bcast_S_S8x32x1800x1 (constantI S_ 32 0#32))
  let v9 : IVec S8x32x1800x1 32 := broadcastInDim S8x32x1800x1 ![0, 1, 2, 3] bcast_S1x1x1x1_S8x32x1800x1_0_1_2_3 (broadcastInDim S1x1x1x1 ![3] bcast_S1_S1x1x1x1_3 (constantI S1 32 65535#32))
  let v10 : IVec S8x32x1800x1 1 := cmpi .sle v5 v9
  let v12 : IVec S8x32x1800 1 := Host.reduce IntOp.andi (andi v7 v10) (constantI S_ 1 1#1) reducesTo_S8x32x1800x1_S8x32x1800_d3 h_S_
  let v13 : FVec F S8x32x1800 .f32 := Host.gather gather_S8x32x65536_S8x32x1800x1_S8x32x1800_n_2_01_01_2_3_111 embr v5
  select v12 v13 (broadcastInDim S8x32x1800 ![] bcast_S_S8x32x1800 (constant S_ .f32 0x7FC00000#32))

def pixx (embr : FVec F S8x32x65536 .f32) (lblr : IVec S8x65536 32) (ci : IVec S8x36 32) : FVec F S8x1800x32 .f32 :=
  let v28 : IVec S8x32x1800 32 := broadcastInDim S8x32x1800 ![0, 1, 2] bcast_S8x1x1800_S8x32x1800_0_1_2 (broadcastInDim S8x1x1800 ![0, 2] bcast_S8x1800_S8x1x1800_0_2 (position lblr ci))
  transpose S8x1800x32 [0, 2, 1] (takeF embr v28) transposes_S8x32x1800_S8x1800x32_0_2_1

def pixv (ci : IVec S8x36 32) : FVec F S8x1800 .f32 :=
  let v33 : IVec S8x36x50 32 := broadcastInDim S8x36x50 ![0, 1, 2] bcast_S1x1x50_S8x36x50_0_1_2 (broadcastInDim S1x1x50 ![2] bcast_S50_S1x1x50_2 (iotaInDim S50 32 0))
  let v34 : IVec S8x36x50 32 := broadcastInDim S8x36x50 ![0, 1, 2] bcast_S8x36x1_S8x36x50_0_1_2 (broadcastInDim S8x36x1 ![0, 1] bcast_S8x36_S8x36x1_0_1 ci)
  shapeCast _ (uitofp (F := F) .f32 (cmpi .slt v33 v34)) shapeCasts_S8x36x50_S8x1800

end Cert.KStage

end
-- ==== Proof.Loss.lean ====
import proofs.«422442_j10376640987314_2_alg».proof.Proof.Gen.ReferenceIdeal

noncomputable section

namespace Cert.Loss

open Idealize.ShloMosaic Cert.ReferenceIdeal Cert.ReferenceIdeal.Gen

variable {F : FTy → Type} [FloatOps F]

def shifted (pixx : FVec F S8x1800x32 .f32) (seg : FVec F S8x36x32 .f32) (valid : IVec S8x36 1) : FVec F S8x1800x36 .f32 :=
  let v61 : FVec F S8x1800x36 .f32 := Host.dotGeneral dot_S8x1800x32_S8x36x32_S8x1800x36_2_2_1_1_0_0 none pixx seg
  let v63 : FVec F S8x1800x36 .f32 := Host.divf v61 (broadcastInDim S8x1800x36 ![] bcast_S_S8x1800x36 (constant S_ .f32 0x3DCCCCCD#32))
  let v64 : IVec S8x1x36 1 := broadcastInDim S8x1x36 ![0, 2] bcast_S8x36_S8x1x36_0_2 valid
  let v66 : FVec F S8x1800x36 .f32 := select (broadcastInDim S8x1800x36 ![0, 1, 2] bcast_S8x1x36_S8x1800x36_0_1_2 v64) v63
    (broadcastInDim S8x1800x36 ![] bcast_S_S8x1800x36 (id (constant S_ .f32 0xFF800000#32)))
  let v67 : FVec F S8x1800 .f32 := Host.reduce FloatOps.maximumf v66 (constant S_ .f32 0xFF800000#32) reducesTo_S8x1800x36_S8x1800_d2 h_S_
  subf v63 (broadcastInDim S8x1800x36 ![0, 1, 2] bcast_S8x1800x1_S8x1800x36_0_1_2 (broadcastInDim S8x1800x1 ![0, 1] bcast_S8x1800_S8x1800x1_0_1 v67))

def validF (valid : IVec S8x36 1) : FVec F S8x1x36 .f32 :=
  uitofp (F := F) .f32 (broadcastInDim S8x1x36 ![0, 2] bcast_S8x36_S8x1x36_0_2 valid)

def posMask (valid : IVec S8x36 1) : FVec F S8x1800x36 .f32 :=
  let v3 : IVec S36 32 := iotaInDim S36 32 0
  let v60 : IVec S1800 32 := shapeCast _ (broadcastInDim S36x50 ![0] bcast_S36_S36x50_0 v3) shapeCasts_S36x50_S1800
  let v73 : IVec S1x1800x36 32 := broadcastInDim S1x1800x36 ![0, 1, 2] bcast_S1x1800x1_S1x1800x36_0_1_2 (broadcastInDim S1x1800x1 ![1] bcast_S1800_S1x1800x1_1 v60)
  let v74 : IVec S1x1800x36 32 := broadcastInDim S1x1800x36 ![0, 1, 2] bcast_S1x1x36_S1x1800x36_0_1_2 (broadcastInDim S1x1x36 ![2] bcast_S36_S1x1x36_2 v3)
  let v77 : FVec F S8x1800x36 .f32 := broadcastInDim S8x1800x36 ![0, 1, 2] bcast_S1x1800x36_S8x1800x36_0_1_2 (uitofp (F := F) .f32 (cmpi .eq v73 v74))
  mulf v77 (broadcastInDim S8x1800x36 ![0, 1, 2] bcast_S8x1x36_S8x1800x36_0_1_2 (validF (F := F) valid))

def lossRows (pixx : FVec F S8x1800x32 .f32) (seg : FVec F S8x36x32 .f32) (valid : IVec S8x36 1) : FVec F S8x1800 .f32 :=
  let v70 : FVec F S8x1800x36 .f32 := shifted pixx seg valid
  let v79 : FVec F S8x1800x36 .f32 := posMask (F := F) valid
  let v82 : FVec F S8x1800x36 .f32 := mulf (Host.exp v70) (broadcastInDim S8x1800x36 ![0, 1, 2] bcast_S8x1x36_S8x1800x36_0_1_2 (validF (F := F) valid))
  let v84 : FVec F S8x1800x36 .f32 := subf (broadcastInDim S8x1800x36 ![] bcast_S_S8x1800x36 (constant S_ .f32 0x3F800000#32)) v79
  let v86 : FVec F S8x1800 .f32 := Host.reduceAdd (mulf v82 v84) (constant S_ .f32 0x00000000#32) reducesTo_S8x1800x36_S8x1800_d2 h_S_
  let v89 : FVec F S8x1800x36 .f32 := addf v82 (broadcastInDim S8x1800x36 ![0, 1, 2] bcast_S8x1800x1_S8x1800x36_0_1_2 (broadcastInDim S8x1800x1 ![0, 1] bcast_S8x1800_S8x1800x1_0_1 v86))
  let v91 : FVec F S8x1800x36 .f32 := subf v70 (Host.log v89)
  let v93 : FVec F S8x1800 .f32 := Host.reduceAdd (mulf v79 v91) (constant S_ .f32 0x00000000#32) reducesTo_S8x1800x36_S8x1800_d2 h_S_
  let v94 : FVec F S8x1800 .f32 := Host.reduceAdd v79 (constant S_ .f32 0x00000000#32) reducesTo_S8x1800x36_S8x1800_d2 h_S_
  let v97 : FVec F S8x1800 .f32 := Host.divf v93 (maximumf v94 (broadcastInDim S8x1800 ![] bcast_S_S8x1800 (constant S_ .f32 0x3F800000#32)))
  mulf (broadcastInDim S8x1800 ![] bcast_S_S8x1800 (constant S_ .f32 0xBFB6DB6E#32)) v97

def weighted (rows : FVec F S8x1800 .f32) (pixv : FVec F S8x1800 .f32) : FVec F S_ .f32 :=
  let v101 : FVec F S8 .f32 := Host.reduceAdd (mulf rows pixv) (constant S_ .f32 0x00000000#32) reducesTo_S8x1800_S8_d1 h_S_
  let v102 : FVec F S8 .f32 := Host.reduceAdd pixv (constant S_ .f32 0x00000000#32) reducesTo_S8x1800_S8_d1 h_S_
  let v105 : FVec F S8 .f32 := Host.divf v101 (maximumf v102 (broadcastInDim S8 ![] bcast_S_S8 (constant S_ .f32 0x3F800000#32)))
  Host.divf (Host.reduceAdd v105 (constant S_ .f32 0x00000000#32) reducesTo_S8_S_d0 h_S_) (constant S_ .f32 0x41000000#32)

def lossTail (pixx : FVec F S8x1800x32 .f32) (seg : FVec F S8x36x32 .f32) (valid : IVec S8x36 1) (pixv : FVec F S8x1800 .f32) : FVec F S_ .f32 :=
  weighted (lossRows pixx seg valid) pixv

end Cert.Loss

end
-- ==== Proof.LibAfter.lean ====
import Idealize.ShloMosaic.Lib.StableHlo.Run

namespace Idealize.ShloMosaic.StableHlo

variable {τ : Topo} {sig : RefSig} {Val : EltTy → Type}

/-- The buffer contents after two lines of host operations run in turn are the second line's from the first line's. -/
theorem after_append (l₁ l₂ : List (HloOp τ sig Val)) (W : Valuation τ sig Val) :
    after (l₁ ++ l₂) W = after l₂ (after l₁ W) := by
  induction l₁ generalizing W with
  | nil => rfl
  | cons op l ih => exact ih _

end Idealize.ShloMosaic.StableHlo
-- ==== Proof.KTail.lean ====
import proofs.«422442_j10376640987314_2_alg».proof.Proof.FrameKI.Base
import proofs.«422442_j10376640987314_2_alg».proof.Proof.KStages
import proofs.«422442_j10376640987314_2_alg».proof.Proof.Loss
import proofs.«422442_j10376640987314_2_alg».proof.Proof.LibAfter

noncomputable section

namespace Cert.KTail

open Idealize.ShloMosaic Idealize.ShloMosaic.TcCoe Idealize.SL.Sem Cert.KernelIdeal Cert.KernelIdeal.Gen Cert.KernelIdeal.Fr

variable {F : FTy → Type} [FloatOps F]

theorem V_main_v0 (m : (ℓ : Loc nD τ sig) → Buf (Elt F) ℓ) (c : Dev nD) :
    (V m c main_v0 : FVec F S8x32x65536 .f32) = shapeCast _ (m ((c.tc : Thread nD τ).loc main_arg0)) shapeCasts_S8x32x256x256_S8x32x65536 := by
  dsimp only [V, V0]
  simp only [hostOps0, List.flatten_cons, List.flatten_nil, List.append_nil]
  after_results
  rfl

theorem V_main_v1 (m : (ℓ : Loc nD τ sig) → Buf (Elt F) ℓ) (c : Dev nD) :
    (V m c main_v1 : IVec S8x65536 32) = shapeCast _ (m ((c.tc : Thread nD τ).loc main_arg1)) shapeCasts_S8x256x256_S8x65536 := by
  dsimp only [V, V0]
  simp only [hostOps0, List.flatten_cons, List.flatten_nil, List.append_nil]
  after_results
  rfl

theorem V_main_v2 (m : (ℓ : Loc nD τ sig) → Buf (Elt F) ℓ) (c : Dev nD) :
    (V m c main_v2 : IVec S8x1x65536 32) = shapeCast _ (V m c main_v1 : IVec S8x65536 32) shapeCasts_S8x65536_S8x1x65536 := by
  dsimp only [V, V0]
  simp only [hostOps0, List.flatten_cons, List.flatten_nil, List.append_nil]
  after_results
  rfl

local macro "read_line" : tactic =>
  `(tactic| (after_results_simp <;> (try simp only [StableHlo.TRef.ofBuf, StableHlo.TRef.toBuf, cast_eq])))

section Stages

variable (W : Valuation τ sig (Elt F))

def W1 : Valuation τ sig (Elt F) := StableHlo.after hostOps1 W
def W2 : Valuation τ sig (Elt F) := StableHlo.after hostOps1_1 (W1 W)
def W3 : Valuation τ sig (Elt F) := StableHlo.after hostOps1_2 (W2 W)
def W4 : Valuation τ sig (Elt F) := StableHlo.after hostOps1_3 (W3 W)
def W5 : Valuation τ sig (Elt F) := StableHlo.after hostOps1_4 (W4 W)
def W6 : Valuation τ sig (Elt F) := StableHlo.after hostOps1_5 (W5 W)
def W7 : Valuation τ sig (Elt F) := StableHlo.after hostOps1_6 (W6 W)
def W8 : Valuation τ sig (Elt F) := StableHlo.after hostOps1_7 (W7 W)
def W9 : Valuation τ sig (Elt F) := StableHlo.after hostOps1_8 (W8 W)
def W10 : Valuation τ sig (Elt F) := StableHlo.after hostOps1_9 (W9 W)
def W11 : Valuation τ sig (Elt F) := StableHlo.after hostOps1_10 (W10 W)
def W12 : Valuation τ sig (Elt F) := StableHlo.after hostOps1_11 (W11 W)

theorem w1_v4 : (W1 W (Proc.devRef .tc main_v4) : FVec F S8x36 .f32) = Cert.KStage.cnt2 (W (Proc.devRef .tc main_v3_1)) := by
  unfold W1; simp only [hostOps1]; read_line; rfl
theorem w1_v5 : (W1 W (Proc.devRef .tc main_v5) : FVec F S8x36x32 .f32) = Cert.KStage.segT (W (Proc.devRef .tc main_v3_0)) := by
  unfold W1; simp only [hostOps1]; read_line; rfl
theorem w1_v0 : W1 W (Proc.devRef .tc main_v0) = W (Proc.devRef .tc main_v0) := by
  unfold W1; simp only [hostOps1]; read_line
theorem w1_v1 : W1 W (Proc.devRef .tc main_v1) = W (Proc.devRef .tc main_v1) := by
  unfold W1; simp only [hostOps1]; read_line

theorem w2_v6 : (W2 W (Proc.devRef .tc main_v6) : FVec F S8x36 .f32) = Host.roundeven (Cert.KStage.cnt2 (W (Proc.devRef .tc main_v3_1))) := by
  unfold W2; simp only [hostOps1_1]; read_line; rw [w1_v4]
theorem w2_v5 : (W2 W (Proc.devRef .tc main_v5) : FVec F S8x36x32 .f32) = Cert.KStage.segT (W (Proc.devRef .tc main_v3_0)) := by
  unfold W2; simp only [hostOps1_1]; read_line; exact w1_v5 W
theorem w2_v0 : W2 W (Proc.devRef .tc main_v0) = W (Proc.devRef .tc main_v0) := by
  unfold W2; simp only [hostOps1_1]; read_line; exact w1_v0 W
theorem w2_v1 : W2 W (Proc.devRef .tc main_v1) = W (Proc.devRef .tc main_v1) := by
  unfold W2; simp only [hostOps1_1]; read_line; exact w1_v1 W

theorem w3_v7 : (W3 W (Proc.devRef .tc main_v7) : IVec S8x36 32) = Cert.KStage.countsI (W (Proc.devRef .tc main_v3_1)) := by
  unfold W3; simp only [hostOps1_2]; read_line; rw [w2_v6]; rfl
theorem w3_v9 : (W3 W (Proc.devRef .tc main_v9) : IVec S8x36 1) = Cert.KStage.valid (Cert.KStage.countsI (W (Proc.devRef .tc main_v3_1))) := by
  unfold W3; simp only [hostOps1_2]; read_line; rw [w2_v6]; rfl
theorem w3_v13 : (W3 W (Proc.devRef .tc main_v13) : IVec S8x65536 32) = Cert.KStage.keys (W (Proc.devRef .tc main_v1)) := by
  unfold W3; simp only [hostOps1_2]; read_line; rw [w2_v1]; rfl
theorem w3_v5 : (W3 W (Proc.devRef .tc main_v5) : FVec F S8x36x32 .f32) = Cert.KStage.segT (W (Proc.devRef .tc main_v3_0)) := by
  unfold W3; simp only [hostOps1_2]; read_line; exact w2_v5 W
theorem w3_v0 : W3 W (Proc.devRef .tc main_v0) = W (Proc.devRef .tc main_v0) := by
  unfold W3; simp only [hostOps1_2]; read_line; exact w2_v0 W

theorem w4_v14 : (W4 W (Proc.devRef .tc main_v14) : IVec S8x65536 32) = Cert.KStage.sortedIdx (W (Proc.devRef .tc main_v1)) := by
  unfold W4; simp only [hostOps1_3]; read_line; rw [w3_v13]; rfl
theorem w4_v7 : (W4 W (Proc.devRef .tc main_v7) : IVec S8x36 32) = Cert.KStage.countsI (W (Proc.devRef .tc main_v3_1)) := by
  unfold W4; simp only [hostOps1_3]; read_line; exact w3_v7 W
theorem w4_v9 : (W4 W (Proc.devRef .tc main_v9) : IVec S8x36 1) = Cert.KStage.valid (Cert.KStage.countsI (W (Proc.devRef .tc main_v3_1))) := by
  unfold W4; simp only [hostOps1_3]; read_line; exact w3_v9 W
theorem w4_v5 : (W4 W (Proc.devRef .tc main_v5) : FVec F S8x36x32 .f32) = Cert.KStage.segT (W (Proc.devRef .tc main_v3_0)) := by
  unfold W4; simp only [hostOps1_3]; read_line; exact w3_v5 W
theorem w4_v0 : W4 W (Proc.devRef .tc main_v0) = W (Proc.devRef .tc main_v0) := by
  unfold W4; simp only [hostOps1_3]; read_line; exact w3_v0 W

theorem w5_v15 : (W5 W (Proc.devRef .tc main_v15) : IVec S8x36 32) = Cert.KStage.cums (Cert.KStage.countsI (W (Proc.devRef .tc main_v3_1))) := by
  unfold W5; simp only [hostOps1_4]; read_line; rw [w4_v7]; rfl
theorem w5_v14 : (W5 W (Proc.devRef .tc main_v14) : IVec S8x65536 32) = Cert.KStage.sortedIdx (W (Proc.devRef .tc main_v1)) := by
  unfold W5; simp only [hostOps1_4]; read_line; exact w4_v14 W
theorem w5_v7 : (W5 W (Proc.devRef .tc main_v7) : IVec S8x36 32) = Cert.KStage.countsI (W (Proc.devRef .tc main_v3_1)) := by
  unfold W5; simp only [hostOps1_4]; read_line; exact w4_v7 W
theorem w5_v9 : (W5 W (Proc.devRef .tc main_v9) : IVec S8x36 1) = Cert.KStage.valid (Cert.KStage.countsI (W (Proc.devRef .tc main_v3_1))) := by
  unfold W5; simp only [hostOps1_4]; read_line; exact w4_v9 W
theorem w5_v5 : (W5 W (Proc.devRef .tc main_v5) : FVec F S8x36x32 .f32) = Cert.KStage.segT (W (Proc.devRef .tc main_v3_0)) := by
  unfold W5; simp only [hostOps1_4]; read_line; exact w4_v5 W
theorem w5_v0 : W5 W (Proc.devRef .tc main_v0) = W (Proc.devRef .tc main_v0) := by
  unfold W5; simp only [hostOps1_4]; read_line; exact w4_v0 W

theorem w6_v25 : (W6 W (Proc.devRef .tc main_v25) : IVec S8x1800 32) = Cert.KStage.idxFlat (Cert.KStage.countsI (W (Proc.devRef .tc main_v3_1))) := by
  unfold W6; simp only [hostOps1_5]; read_line; rw [w5_v15, w5_v7]; rfl
theorem w6_v17 : (W6 W (Proc.devRef .tc main_v17) : IVec S50 32) = iotaInDim S50 32 0 := by
  unfold W6; simp only [hostOps1_5]; read_line
theorem w6_v14 : (W6 W (Proc.devRef .tc main_v14) : IVec S8x65536 32) = Cert.KStage.sortedIdx (W (Proc.devRef .tc main_v1)) := by
  unfold W6; simp only [hostOps1_5]; read_line; exact w5_v14 W
theorem w6_v7 : (W6 W (Proc.devRef .tc main_v7) : IVec S8x36 32) = Cert.KStage.countsI (W (Proc.devRef .tc main_v3_1)) := by
  unfold W6; simp only [hostOps1_5]; read_line; exact w5_v7 W
theorem w6_v9 : (W6 W (Proc.devRef .tc main_v9) : IVec S8x36 1) = Cert.KStage.valid (Cert.KStage.countsI (W (Proc.devRef .tc main_v3_1))) := by
  unfold W6; simp only [hostOps1_5]; read_line; exact w5_v9 W
theorem w6_v5 : (W6 W (Proc.devRef .tc main_v5) : FVec F S8x36x32 .f32) = Cert.KStage.segT (W (Proc.devRef .tc main_v3_0)) := by
  unfold W6; simp only [hostOps1_5]; read_line; exact w5_v5 W
theorem w6_v0 : W6 W (Proc.devRef .tc main_v0) = W (Proc.devRef .tc main_v0) := by
  unfold W6; simp only [hostOps1_5]; read_line; exact w5_v0 W

theorem w7_v26 : (W7 W (Proc.devRef .tc main_v26) : IVec S8x1800 32)
    = Cert.KStage.position (W (Proc.devRef .tc main_v1)) (Cert.KStage.countsI (W (Proc.devRef .tc main_v3_1))) := by
  unfold W7; simp only [hostOps1_6]; read_line; rw [w6_v25, w6_v14]; rfl
theorem w7_v17 : (W7 W (Proc.devRef .tc main_v17) : IVec S50 32) = iotaInDim S50 32 0 := by
  unfold W7; simp only [hostOps1_6]; read_line; exact w6_v17 W
theorem w7_v7 : (W7 W (Proc.devRef .tc main_v7) : IVec S8x36 32) = Cert.KStage.countsI (W (Proc.devRef .tc main_v3_1)) := by
  unfold W7; simp only [hostOps1_6]; read_line; exact w6_v7 W
theorem w7_v9 : (W7 W (Proc.devRef .tc main_v9) : IVec S8x36 1) = Cert.KStage.valid (Cert.KStage.countsI (W (Proc.devRef .tc main_v3_1))) := by
  unfold W7; simp only [hostOps1_6]; read_line; exact w6_v9 W
theorem w7_v5 : (W7 W (Proc.devRef .tc main_v5) : FVec F S8x36x32 .f32) = Cert.KStage.segT (W (Proc.devRef .tc main_v3_0)) := by
  unfold W7; simp only [hostOps1_6]; read_line; exact w6_v5 W
theorem w7_v0 : W7 W (Proc.devRef .tc main_v0) = W (Proc.devRef .tc main_v0) := by
  unfold W7; simp only [hostOps1_6]; read_line; exact w6_v0 W

theorem w8_v28 : (W8 W (Proc.devRef .tc main_v28) : IVec S8x32x1800 32)
    = broadcastInDim S8x32x1800 ![0, 1, 2] bcast_S8x1x1800_S8x32x1800_0_1_2 (broadcastInDim S8x1x1800 ![0, 2] bcast_S8x1800_S8x1x1800_0_2
        (Cert.KStage.position (W (Proc.devRef .tc main_v1)) (Cert.KStage.countsI (W (Proc.devRef .tc main_v3_1))))) := by
  unfold W8; simp only [hostOps1_7]; read_line; rw [w7_v26]
theorem w8_v17 : (W8 W (Proc.devRef .tc main_v17) : IVec S50 32) = iotaInDim S50 32 0 := by
  unfold W8; simp only [hostOps1_7]; read_line; exact w7_v17 W
theorem w8_v7 : (W8 W (Proc.devRef .tc main_v7) : IVec S8x36 32) = Cert.KStage.countsI (W (Proc.devRef .tc main_v3_1)) := by
  unfold W8; simp only [hostOps1_7]; read_line; exact w7_v7 W
theorem w8_v9 : (W8 W (Proc.devRef .tc main_v9) : IVec S8x36 1) = Cert.KStage.valid (Cert.KStage.countsI (W (Proc.devRef .tc main_v3_1))) := by
  unfold W8; simp only [hostOps1_7]; read_line; exact w7_v9 W
theorem w8_v5 : (W8 W (Proc.devRef .tc main_v5) : FVec F S8x36x32 .f32) = Cert.KStage.segT (W (Proc.devRef .tc main_v3_0)) := by
  unfold W8; simp only [hostOps1_7]; read_line; exact w7_v5 W
theorem w8_v0 : W8 W (Proc.devRef .tc main_v0) = W (Proc.devRef .tc main_v0) := by
  unfold W8; simp only [hostOps1_7]; read_line; exact w7_v0 W

theorem w9_v29 : (W9 W (Proc.devRef .tc main_v29) : FVec F S8x32x1800 .f32)
    = Cert.KStage.takeF (W (Proc.devRef .tc main_v0)) (broadcastInDim S8x32x1800 ![0, 1, 2] bcast_S8x1x1800_S8x32x1800_0_1_2 (broadcastInDim S8x1x1800 ![0, 2] bcast_S8x1800_S8x1x1800_0_2
        (Cert.KStage.position (W (Proc.devRef .tc main_v1)) (Cert.KStage.countsI (W (Proc.devRef .tc main_v3_1)))))) := by
  unfold W9; simp only [hostOps1_8]; read_line; rw [w8_v28, w8_v0]; rfl
theorem w9_v17 : (W9 W (Proc.devRef .tc main_v17) : IVec S50 32) = iotaInDim S50 32 0 := by
  unfold W9; simp only [hostOps1_8]; read_line; exact w8_v17 W
theorem w9_v7 : (W9 W (Proc.devRef .tc main_v7) : IVec S8x36 32) = Cert.KStage.countsI (W (Proc.devRef .tc main_v3_1)) := by
  unfold W9; simp only [hostOps1_8]; read_line; exact w8_v7 W
theorem w9_v9 : (W9 W (Proc.devRef .tc main_v9) : IVec S8x36 1) = Cert.KStage.valid (Cert.KStage.countsI (W (Proc.devRef .tc main_v3_1))) := by
  unfold W9; simp only [hostOps1_8]; read_line; exact w8_v9 W
theorem w9_v5 : (W9 W (Proc.devRef .tc main_v5) : FVec F S8x36x32 .f32) = Cert.KStage.segT (W (Proc.devRef .tc main_v3_0)) := by
  unfold W9; simp only [hostOps1_8]; read_line; exact w8_v5 W

theorem w10_v43 : (W10 W (Proc.devRef .tc main_v43) : FVec F S8x1800x36 .f32)
    = Host.divf (Host.dotGeneral dot_S8x1800x32_S8x36x32_S8x1800x36_2_2_1_1_0_0 none
          (Cert.KStage.pixx (W (Proc.devRef .tc main_v0)) (W (Proc.devRef .tc main_v1)) (Cert.KStage.countsI (W (Proc.devRef .tc main_v3_1))))
          (Cert.KStage.segT (W (Proc.devRef .tc main_v3_0))))
        (broadcastInDim S8x1800x36 ![] bcast_S_S8x1800x36 (constant S_ .f32 0x3DCCCCCD#32)) := by
  unfold W10; simp only [hostOps1_9]; read_line; rw [w9_v29, w9_v5]; rfl
theorem w10_v44 : (W10 W (Proc.devRef .tc main_v44) : IVec S8x1x36 1)
    = broadcastInDim S8x1x36 ![0, 2] bcast_S8x36_S8x1x36_0_2 (Cert.KStage.valid (Cert.KStage.countsI (W (Proc.devRef .tc main_v3_1)))) := by
  unfold W10; simp only [hostOps1_9]; read_line; rw [w9_v9]
theorem w10_v45 : (W10 W (Proc.devRef .tc main_v45) : FVec F S8x1x36 .f32)
    = uitofp (F := F) .f32 (broadcastInDim S8x1x36 ![0, 2] bcast_S8x36_S8x1x36_0_2 (Cert.KStage.valid (Cert.KStage.countsI (W (Proc.devRef .tc main_v3_1))))) := by
  unfold W10; simp only [hostOps1_9]; read_line; rw [w9_v9]
theorem w10_v40 : (W10 W (Proc.devRef .tc main_v40) : IVec S1800 32)
    = shapeCast _ (broadcastInDim S36x50 ![0] bcast_S36_S36x50_0 (iotaInDim S36 32 0)) shapeCasts_S36x50_S1800 := by
  unfold W10; simp only [hostOps1_9]; read_line; rfl
theorem w10_v37 : (W10 W (Proc.devRef .tc main_v37) : FVec F S8x1800 .f32) = Cert.KStage.pixv (Cert.KStage.countsI (W (Proc.devRef .tc main_v3_1))) := by
  unfold W10; simp only [hostOps1_9]; read_line; rw [w9_v17, w9_v7]; rfl
theorem w10_cst_2 : (W10 W (Proc.devRef .tc main_cst_2) : FVec F S_ .f32) = constant S_ .f32 0xFF800000#32 := by
  unfold W10; simp only [hostOps1_9]; read_line

theorem w11_v46 : (W11 W (Proc.devRef .tc main_v46) : FVec F S8x1800x36 .f32)
    = select (broadcastInDim S8x1800x36 ![0, 1, 2] bcast_S8x1x36_S8x1800x36_0_1_2
          (broadcastInDim S8x1x36 ![0, 2] bcast_S8x36_S8x1x36_0_2 (Cert.KStage.valid (Cert.KStage.countsI (W (Proc.devRef .tc main_v3_1))))))
        (Host.divf (Host.dotGeneral dot_S8x1800x32_S8x36x32_S8x1800x36_2_2_1_1_0_0 none
            (Cert.KStage.pixx (W (Proc.devRef .tc main_v0)) (W (Proc.devRef .tc main_v1)) (Cert.KStage.countsI (W (Proc.devRef .tc main_v3_1))))
            (Cert.KStage.segT (W (Proc.devRef .tc main_v3_0))))
          (broadcastInDim S8x1800x36 ![] bcast_S_S8x1800x36 (constant S_ .f32 0x3DCCCCCD#32)))
        (broadcastInDim S8x1800x36 ![] bcast_S_S8x1800x36 (id (constant S_ .f32 0xFF800000#32))) := by
  unfold W11; simp only [hostOps1_10]; read_line; rw [w10_v44, w10_v43, w10_cst_2]
theorem w11_v43 : (W11 W (Proc.devRef .tc main_v43) : FVec F S8x1800x36 .f32)
    = Host.divf (Host.dotGeneral dot_S8x1800x32_S8x36x32_S8x1800x36_2_2_1_1_0_0 none
          (Cert.KStage.pixx (W (Proc.devRef .tc main_v0)) (W (Proc.devRef .tc main_v1)) (Cert.KStage.countsI (W (Proc.devRef .tc main_v3_1))))
          (Cert.KStage.segT (W (Proc.devRef .tc main_v3_0))))
        (broadcastInDim S8x1800x36 ![] bcast_S_S8x1800x36 (constant S_ .f32 0x3DCCCCCD#32)) := by
  unfold W11; simp only [hostOps1_10]; read_line; exact w10_v43 W
theorem w11_v45 : (W11 W (Proc.devRef .tc main_v45) : FVec F S8x1x36 .f32)
    = uitofp (F := F) .f32 (broadcastInDim S8x1x36 ![0, 2] bcast_S8x36_S8x1x36_0_2 (Cert.KStage.valid (Cert.KStage.countsI (W (Proc.devRef .tc main_v3_1))))) := by
  unfold W11; simp only [hostOps1_10]; read_line; exact w10_v45 W
theorem w11_v40 : (W11 W (Proc.devRef .tc main_v40) : IVec S1800 32)
    = shapeCast _ (broadcastInDim S36x50 ![0] bcast_S36_S36x50_0 (iotaInDim S36 32 0)) shapeCasts_S36x50_S1800 := by
  unfold W11; simp only [hostOps1_10]; read_line; exact w10_v40 W
theorem w11_v37 : (W11 W (Proc.devRef .tc main_v37) : FVec F S8x1800 .f32) = Cert.KStage.pixv (Cert.KStage.countsI (W (Proc.devRef .tc main_v3_1))) := by
  unfold W11; simp only [hostOps1_10]; read_line; exact w10_v37 W

set_option maxRecDepth 16384 in
theorem w12_v88 : (W12 W (Proc.devRef .tc main_v88) : FVec F S_ .f32)
    = Cert.Loss.lossTail
        (Cert.KStage.pixx (W (Proc.devRef .tc main_v0)) (W (Proc.devRef .tc main_v1)) (Cert.KStage.countsI (W (Proc.devRef .tc main_v3_1))))
        (Cert.KStage.segT (W (Proc.devRef .tc main_v3_0)))
        (Cert.KStage.valid (Cert.KStage.countsI (W (Proc.devRef .tc main_v3_1))))
        (Cert.KStage.pixv (Cert.KStage.countsI (W (Proc.devRef .tc main_v3_1)))) := by
  unfold W12; simp only [hostOps1_11]; read_line
  rw [w11_v46, w11_v43, w11_v45, w11_v40, w11_v37]
  rfl

theorem after_tail_eq : StableHlo.after (tailOps (F := F)).flatten W = W12 W := by
  simp only [tailOps, List.flatten_cons, List.flatten_nil, List.append_nil, StableHlo.after_append]
  rfl

theorem tail_abs : (StableHlo.after (tailOps (F := F)).flatten W (Proc.devRef .tc main_v88) : FVec F S_ .f32)
    = Cert.Loss.lossTail
        (Cert.KStage.pixx (W (Proc.devRef .tc main_v0)) (W (Proc.devRef .tc main_v1)) (Cert.KStage.countsI (W (Proc.devRef .tc main_v3_1))))
        (Cert.KStage.segT (W (Proc.devRef .tc main_v3_0)))
        (Cert.KStage.valid (Cert.KStage.countsI (W (Proc.devRef .tc main_v3_1))))
        (Cert.KStage.pixv (Cert.KStage.countsI (W (Proc.devRef .tc main_v3_1)))) := by
  rw [after_tail_eq]; exact w12_v88 W

end Stages

/-- For any proof data whose entry arrays are the region-entry contents, the operations after the region leave in the result buffer the shared loss of the kernel-side stages of the two result arrays. -/
theorem tail_eq (m : (ℓ : Loc nD τ sig) → Buf (Elt F) ℓ)
    (dats : (p : Fin 1) → (c : Dev nD) → Pipeline.Dat τ (Elt F) Unit ℕ (UR sig nD τ) ℕ (cfgs p) c) (c : Dev nD)
    (hA : ∀ w : Fin cfg0.W, (dats 0 c).A w = V m c (Pipeline.arrRef spec0 w)) :
    (Pipeline.afterTail₀ cfgs dats 0 (V0 m) tailOps c main_v88 : FVec F S_ .f32)
      = Cert.Loss.lossTail
          (Cert.KStage.pixx (V m c main_v0) (V m c main_v1) (Cert.KStage.countsI ((dats 0 c).arrAt 3 cfg0.N)))
          (Cert.KStage.segT ((dats 0 c).arrAt 2 cfg0.N))
          (Cert.KStage.valid (Cert.KStage.countsI ((dats 0 c).arrAt 3 cfg0.N)))
          (Cert.KStage.pixv (Cert.KStage.countsI ((dats 0 c).arrAt 3 cfg0.N))) := by
  have h0 : Pipeline.withArrays spec0 c (V0 m c) (fun w => (dats 0 c).arrAt w cfg0.N) (Proc.devRef .tc main_v0) = V m c main_v0 :=
    (Pipeline.withArrays_arr spec0 launch0.win.arr_inj c _ _ 0).trans (((dats 0 c).arrAt_in 0 rfl _).trans (hA 0))
  have h1 : Pipeline.withArrays spec0 c (V0 m c) (fun w => (dats 0 c).arrAt w cfg0.N) (Proc.devRef .tc main_v1) = V m c main_v1 :=
    Pipeline.withArrays_of_ne spec0 c _ _ main_v1 (by decide)
  have h2 : Pipeline.withArrays spec0 c (V0 m c) (fun w => (dats 0 c).arrAt w cfg0.N) (Proc.devRef .tc main_v3_0) = (dats 0 c).arrAt 2 cfg0.N :=
    Pipeline.withArrays_arr spec0 launch0.win.arr_inj c _ _ 2
  have h3 : Pipeline.withArrays spec0 c (V0 m c) (fun w => (dats 0 c).arrAt w cfg0.N) (Proc.devRef .tc main_v3_1) = (dats 0 c).arrAt 3 cfg0.N :=
    Pipeline.withArrays_arr spec0 launch0.win.arr_inj c _ _ 3
  unfold Pipeline.afterTail₀
  refine (tail_abs (Pipeline.withArrays spec0 c (V0 m c) (fun w => (dats 0 c).arrAt w cfg0.N))).trans ?_
  rw [h0, h1, h2, h3]

end Cert.KTail

end
-- ==== Proof.Spec.lean ====
import Idealize.ShloMosaic.Lib.ValueIdx
import Idealize.ShloMosaic.PureOps.Ideal

noncomputable section

namespace Cert.Spec

open Idealize.ShloMosaic Idealize.ShloMosaic.ValueIdx
open scoped BigOperators

abbrev SLbl : Shape := ⟨2, ![8, 65536]⟩
abbrev SEmb : Shape := ⟨3, ![8, 32, 65536]⟩

abbrev clsWord (c : Fin 36) : BitVec 32 := BitVec.ofNat 32 c.val

def cntN (lbl : SLbl.Idx → BitVec 32) (b : Fin 8) (c : Fin 36) : ℕ :=
  (Finset.univ.filter fun n : Fin 65536 => lbl (ix2 b n) = clsWord c).card

def offN (lbl : SLbl.Idx → BitVec 32) (b : Fin 8) (c : Fin 36) : ℕ :=
  ∑ c' : Fin 36, if c'.val < c.val then cntN lbl b c' else 0

def LabelsInRange (lbl : SLbl.Idx → BitVec 32) : Prop := ∀ (b : Fin 8) (n : Fin 65536), (lbl (ix2 b n)).toNat < 36

def segSum (emb : SEmb.Idx → EReal) (lbl : SLbl.Idx → BitVec 32) (b : Fin 8) (c : Fin 36) (d : Fin 32) : EReal :=
  ∑ n : Fin 65536, (if lbl (ix2 b n) = clsWord c then (1 : EReal) else 0) * emb (ix3 b d n)

def segMean (emb : SEmb.Idx → EReal) (lbl : SLbl.Idx → BitVec 32) (b : Fin 8) (c : Fin 36) (d : Fin 32) : EReal :=
  Ideal.div (segSum emb lbl b c d) (max (((cntN lbl b c : ℕ) : ℝ) : EReal) (Ideal.ofBits .f32 0x3F800000#32))

def IsKth (lbl : SLbl.Idx → BitVec 32) (b : Fin 8) (c : Fin 36) (k : ℕ) (n : Fin 65536) : Prop :=
  lbl (ix2 b n) = clsWord c ∧
    (Finset.univ.filter fun n' : Fin 65536 => n' < n ∧ lbl (ix2 b n') = clsWord c).card = k

end Cert.Spec

end
-- ==== Proof.KPayload.lean ====
import proofs.«422442_j10376640987314_2_alg».proof.Proof.Gen.KernelIdeal.Skeleton
import proofs.«422442_j10376640987314_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Mathlib.Data.EReal.Basic
import Mathlib.Algebra.BigOperators.Fin

noncomputable section

namespace Cert.KPayload

open Idealize.ShloMosaic Idealize.ShloMosaic.ValueIdx Cert.KernelIdeal Cert.KernelIdeal.Gen Cert.Spec
open scoped BigOperators

theorem pay1_apply (r : Fin 33) (cl : Fin 36) : k0_pay1 (F := Ideal) (ix2 r cl) = 0 := by
  unfold k0_pay1
  rw [shapeCast_self]
  exact Ideal.ofBits_zero_f32

theorem lhs_pay2_0 (i : S33x36.Idx) (q : dot_S33x32768_S36x32768_S33x36_1_1_0_0_n_n.contr.Idx) :
    (dot_S33x32768_S36x32768_S33x36_1_1_0_0_n_n.lhsIdx i q 0).val = (i 0).val := by
  unfold DotDims.lhsIdx
  rw [dif_neg (show ¬(0 : Fin S33x32768.rank) ∈ dot_S33x32768_S36x32768_S33x36_1_1_0_0_n_n.lhsBatch by decide),
    dif_pos (show (0 : Fin S33x32768.rank) ∈ dot_S33x32768_S36x32768_S33x36_1_1_0_0_n_n.lhsNonContracting by decide)]
  rfl

theorem lhs_pay2_1 (i : S33x36.Idx) (q : dot_S33x32768_S36x32768_S33x36_1_1_0_0_n_n.contr.Idx) :
    (dot_S33x32768_S36x32768_S33x36_1_1_0_0_n_n.lhsIdx i q 1).val = (q ⟨0, by decide⟩).val :=
  dot_S33x32768_S36x32768_S33x36_1_1_0_0_n_n.lhsIdx_val_of_single rfl i q

theorem rhs_pay2_0 (i : S33x36.Idx) (q : dot_S33x32768_S36x32768_S33x36_1_1_0_0_n_n.contr.Idx) :
    (dot_S33x32768_S36x32768_S33x36_1_1_0_0_n_n.rhsIdx i q 0).val = (i 1).val := by
  unfold DotDims.rhsIdx
  rw [dif_neg (show ¬(0 : Fin S36x32768.rank) ∈ dot_S33x32768_S36x32768_S33x36_1_1_0_0_n_n.rhsBatch by decide),
    dif_pos (show (0 : Fin S36x32768.rank) ∈ dot_S33x32768_S36x32768_S33x36_1_1_0_0_n_n.rhsNonContracting by decide)]
  rfl

theorem rhs_pay2_1 (i : S33x36.Idx) (q : dot_S33x32768_S36x32768_S33x36_1_1_0_0_n_n.contr.Idx) :
    (dot_S33x32768_S36x32768_S33x36_1_1_0_0_n_n.rhsIdx i q 1).val = (q ⟨0, by decide⟩).val :=
  dot_S33x32768_S36x32768_S33x36_1_1_0_0_n_n.rhsIdx_val_of_single rfl i q

theorem matmul_pay2_apply (lhs : FVec Ideal S33x32768 .bf16) (rhs : FVec Ideal S36x32768 .bf16) (r : Fin 33) (cl : Fin 36) :
    matmul dot_S33x32768_S36x32768_S33x36_1_1_0_0_n_n none lhs rhs (constant (F := Ideal) S33x36 .f32 0x00000000#32) (ix2 r cl)
      = ∑ n : Fin 32768, lhs (ix2 r n) * rhs (ix2 cl n) := by
  show FloatOps.matmul dot_S33x32768_S36x32768_S33x36_1_1_0_0_n_n none lhs rhs (constant (F := Ideal) S33x36 .f32 0x00000000#32) (ix2 r cl) = _
  rw [Ideal.matmul_constant_zero_apply, ← Equiv.sum_comp (contrEquiv1 dot_S33x32768_S36x32768_S33x36_1_1_0_0_n_n 32768 rfl rfl).symm]
  refine Finset.sum_congr rfl fun k _ => ?_
  have hk := contrEquiv1_symm_val dot_S33x32768_S36x32768_S33x36_1_1_0_0_n_n 32768 rfl rfl k
  have el : dot_S33x32768_S36x32768_S33x36_1_1_0_0_n_n.lhsIdx (ix2 r cl) ((contrEquiv1 dot_S33x32768_S36x32768_S33x36_1_1_0_0_n_n 32768 rfl rfl).symm k)
      = ix2 r k := funext fun a => Fin.ext (by
    match a with
    | ⟨0, _⟩ => exact lhs_pay2_0 _ _
    | ⟨1, _⟩ => exact (lhs_pay2_1 _ _).trans hk)
  have er : dot_S33x32768_S36x32768_S33x36_1_1_0_0_n_n.rhsIdx (ix2 r cl) ((contrEquiv1 dot_S33x32768_S36x32768_S33x36_1_1_0_0_n_n 32768 rfl rfl).symm k)
      = ix2 cl k := funext fun a => Fin.ext (by
    match a with
    | ⟨0, _⟩ => exact rhs_pay2_0 _ _
    | ⟨1, _⟩ => exact (rhs_pay2_1 _ _).trans hk)
  rw [el, er]

theorem lhsRow_apply (v3 : Vec Ideal S1x32x32768 .f32) (r : Fin 33) (n : Fin 32768) :
    concatenate S33x32768 0
        [⟨S32x32768, truncf (F := Ideal) .bf16 (shapeCast S32x32768 v3 shapeCasts_S1x32x32768_S32x32768) bitsLt_bf16_f32⟩,
          ⟨S1x32768, broadcast S1x32768 (Scalar.ofBits (F := Ideal) .bf16 0x3F80#16)⟩]
        concatenates_S32x32768_S1x32768_S33x32768_d0 (ix2 r n)
      = if h : r.val < 32 then v3 (ix3 0 ⟨r.val, h⟩ n) else (1 : EReal) := by
  by_cases h : r.val < 32
  · rw [dif_pos h, concatenate_pair_apply_left (0 : Fin S33x32768.rank) _ _ concatenates_S32x32768_S1x32768_S33x32768_d0 (ix2 r n) rfl
      (ix2 (⟨r.val, h⟩ : Fin 32) n) (fun b => match b with | ⟨0, _⟩ => rfl | ⟨1, _⟩ => rfl)]
    rw [truncf_apply]
    exact shapeCast_1ab_ab_apply v3 _ _ _
  · rw [dif_neg h, concatenate_pair_apply_right (0 : Fin S33x32768.rank) _ _ concatenates_S32x32768_S1x32768_S33x32768_d0 (ix2 r n) rfl rfl
      (ix2 (0 : Fin 1) n) (fun b => match b with | ⟨0, _⟩ => fun hb => absurd rfl hb | ⟨1, _⟩ => fun _ => rfl)
      (by show 0 + 32 = r.val; have := r.isLt; omega)]
    rw [broadcast_apply]
    exact Ideal.ofBits_one_bf16

theorem indicator_word (a b : BitVec 32) :
    (FloatOps.sitofp (F := Ideal) .f32 ((IntOp.cmpi .eq a b).setWidth 32) : EReal) = if b = a then (1 : EReal) else 0 := by
  show ((((IntOp.cmpi .eq a b).setWidth 32).toInt : ℝ) : EReal) = _
  by_cases h : b = a
  · subst h
    have e : IntOp.cmpi .eq b b = 1#1 := by simp [IntOp.cmpi]
    rw [e, if_pos rfl, show ((1#1 : BitVec 1).setWidth 32).toInt = 1 by decide]
    simp
  · have e : IntOp.cmpi .eq a b = 0#1 := by
      have : (a == b) = false := by simpa using fun h' : a = b => h h'.symm
      simp [IntOp.cmpi, this]
    rw [e, if_neg h, show ((0#1 : BitVec 1).setWidth 32).toInt = 0 by decide]
    simp

theorem rhsRow_apply (v5 : Vec Ideal S1x1x32768 .i32) (cl : Fin 36) (n : Fin 32768) :
    truncf (F := Ideal) .bf16 (sitofp (F := Ideal) .f32 (extui 32 (cmpi .eq
        (broadcastTo S36x32768 (iota .tc S36x1 32 [0] iota_S36x1_d0_w32) broadcasts_S36x1_S36x32768)
        (broadcastTo S36x32768 (shapeCast S1x32768 (shapeCast S32768 v5 shapeCasts_S1x1x32768_S32768) shapeCasts_S32768_S1x32768)
          broadcasts_S1x32768_S36x32768)) natLt_1_32)) bitsLt_bf16_f32 (ix2 cl n)
      = if v5 (ix3 0 0 n) = clsWord cl then (1 : EReal) else 0 := by
  rw [truncf_apply, sitofp_apply, extui_apply]
  show FloatOps.sitofp (F := Ideal) .f32 ((IntOp.cmpi .eq _ _).setWidth 32) = _
  rw [broadcastTo_apply _ broadcasts_S36x1_S36x32768 (ix2 cl n) (ix2 cl (0 : Fin 1)) (fun a => match a with
      | ⟨0, _⟩ => by show cl.val = if (36 : Nat) = 1 then 0 else cl.val; rw [if_neg (by decide)]
      | ⟨1, _⟩ => by show 0 = if (1 : Nat) = 1 then 0 else _; rw [if_pos rfl]),
    broadcastTo_apply _ broadcasts_S1x32768_S36x32768 (ix2 cl n) (ix2 (0 : Fin 1) n) (fun a => match a with
      | ⟨0, _⟩ => by show 0 = if (1 : Nat) = 1 then 0 else _; rw [if_pos rfl]
      | ⟨1, _⟩ => by show n.val = if (32768 : Nat) = 1 then 0 else n.val; rw [if_neg (by decide)]),
    iota_single_apply, shapeCast_a_1a_apply,
    shapeCast_apply v5 shapeCasts_S1x1x32768_S32768 (ix1 n) (ix3 (0 : Fin 1) (0 : Fin 1) n) (by
      rw [Shape.rowMajor_val_three, Shape.rowMajor_val_one]
      show (0 * 1 + 0) * 32768 + n.val = n.val
      omega)]
  exact indicator_word _ _

theorem pay2_apply (v3 : Vec Ideal S1x32x32768 .f32) (v5 : Vec Ideal S1x1x32768 .i32) (v19 : Vec Ideal S33x36 .f32) (r : Fin 33) (cl : Fin 36) :
    k0_pay2 v3 v5 v19 (ix2 r cl) = v19 (ix2 r cl) + ∑ n : Fin 32768, (if h : r.val < 32 then v3 (ix3 0 ⟨r.val, h⟩ n) else 1) * (if v5 (ix3 0 0 n) = clsWord cl then (1 : EReal) else 0) := by
  unfold k0_pay2
  rw [shapeCast_self, addf_apply, matmul_pay2_apply]
  refine congrArg (_ + ·) (Finset.sum_congr rfl fun n _ => ?_)
  exact congrArg₂ (· * ·) (lhsRow_apply v3 r n) (rhsRow_apply v5 cl n)

theorem pay3_apply (v27 : Vec Ideal S1x36 .f32) (v30 : Vec Ideal S32x36 .f32) (d : Fin 32) (cl : Fin 36) :
    k0_pay3 v27 v30 (ix3 0 d cl) = Ideal.div (v30 (ix2 d cl)) (max (v27 (ix2 0 cl)) (Ideal.ofBits .f32 0x3F800000#32)) := by
  unfold k0_pay3
  rw [shapeCast_ab_1ab_apply, divf_apply]
  rw [broadcastTo_apply _ broadcasts_S1x36_S32x36 (ix2 d cl) (ix2 (0 : Fin 1) cl) (fun a => match a with
    | ⟨0, _⟩ => by show 0 = if (1 : Nat) = 1 then 0 else _; rw [if_pos rfl]
    | ⟨1, _⟩ => by show cl.val = if (36 : Nat) = 1 then 0 else cl.val; rw [if_neg (by decide)])]
  rfl

theorem pay4_apply (v36 : Vec Ideal S1x36 .f32) (cl : Fin 36) : k0_pay4 v36 (ix3 0 0 cl) = v36 (ix2 0 cl) := by
  unfold k0_pay4
  exact shapeCast_ab_1ab_apply _ _ _ _ _

theorem sum_halves (f : Fin 65536 → EReal) :
    (∑ n : Fin 65536, f n) = (∑ n : Fin 32768, f ⟨n.val, by omega⟩) + ∑ n : Fin 32768, f ⟨32768 + n.val, by omega⟩ :=
  Fin.sum_univ_add (M := EReal) (a := 32768) (b := 32768) f

end Cert.KPayload

end
-- ==== Proof.SpecFacts.lean ====
import proofs.«422442_j10376640987314_2_alg».proof.Proof.Spec
import Mathlib.Algebra.BigOperators.Group.Finset.Basic
import Mathlib.Algebra.BigOperators.Fin
import Mathlib.Data.Fintype.Card
import Mathlib.Data.Finset.Card
import Mathlib.Algebra.BigOperators.Ring.Finset
import Mathlib.Data.EReal.Basic

namespace Cert.SpecFacts

open Idealize.ShloMosaic Idealize.ShloMosaic.ValueIdx Cert.Spec
open scoped BigOperators

/-- A sum of indicators over a finite type counts the indices where the condition holds. -/
theorem sum_indicator {ι : Type} [Fintype ι] (P : ι → Prop) [DecidablePred P] :
    (∑ k : ι, if P k then (1 : EReal) else 0) = ((((Finset.univ.filter P).card : ℕ) : ℝ) : EReal) := by
  rw [Finset.sum_boole]
  rfl

theorem word_eq_iff (w : BitVec 32) (c : Fin 36) : w = clsWord c ↔ w.toNat = c.val := by
  have hc : (clsWord c).toNat = c.val := by
    rw [BitVec.toNat_ofNat]
    have := c.isLt
    omega
  constructor
  · rintro rfl
    exact hc
  · intro h
    exact BitVec.eq_of_toNat_eq (h.trans hc.symm)

theorem cntN_eq_card (lbl : SLbl.Idx → BitVec 32) (b : Fin 8) (c : Fin 36) :
    cntN lbl b c = (Finset.univ.filter fun n : Fin 65536 => (lbl (ix2 b n)).toNat = c.val).card := by
  unfold cntN
  exact congrArg Finset.card (Finset.filter_congr fun n _ => word_eq_iff _ _)

theorem sum_lt_eq_card (lbl : SLbl.Idx → BitVec 32) (b : Fin 8) (p : ℕ) (hp : p ≤ 36) :
    (∑ c' : Fin 36, if c'.val < p then cntN lbl b c' else 0)
      = (Finset.univ.filter fun n : Fin 65536 => (lbl (ix2 b n)).toNat < p).card := by
  have h1 : ∀ c' : Fin 36, (if c'.val < p then cntN lbl b c' else 0)
      = ∑ n : Fin 65536, if (c'.val < p ∧ (lbl (ix2 b n)).toNat = c'.val) then 1 else 0 := by
    intro c'
    rw [cntN_eq_card, Finset.card_filter]
    by_cases h : c'.val < p
    · rw [if_pos h]
      refine Finset.sum_congr rfl fun n _ => ?_
      simp only [h, true_and]
    · rw [if_neg h]
      symm
      apply Finset.sum_eq_zero
      intro n _
      rw [if_neg]
      exact fun hh => h hh.1
  rw [Finset.sum_congr rfl fun c' _ => h1 c', Finset.sum_comm, Finset.card_filter]
  refine Finset.sum_congr rfl fun n _ => ?_
  by_cases h : (lbl (ix2 b n)).toNat < p
  · rw [if_pos h]
    have h36 : (lbl (ix2 b n)).toNat < 36 := lt_of_lt_of_le h hp
    rw [Finset.sum_eq_single (⟨(lbl (ix2 b n)).toNat, h36⟩ : Fin 36)]
    · rw [if_pos ⟨h, rfl⟩]
    · intro c' _ hne
      rw [if_neg]
      rintro ⟨_, h2⟩
      exact hne (Fin.ext h2.symm)
    · intro hnm
      exact absurd (Finset.mem_univ _) hnm
  · rw [if_neg h]
    apply Finset.sum_eq_zero
    intro c' _
    rw [if_neg]
    rintro ⟨h1, h2⟩
    exact h (h2 ▸ h1)

theorem offN_eq_card (lbl : SLbl.Idx → BitVec 32) (b : Fin 8) (c : Fin 36) :
    offN lbl b c = (Finset.univ.filter fun n : Fin 65536 => (lbl (ix2 b n)).toNat < c.val).card := by
  unfold offN
  exact sum_lt_eq_card lbl b c.val (le_of_lt c.isLt)

theorem card_pixels_le (s : Finset (Fin 65536)) : s.card ≤ 65536 := by
  have h := Finset.card_le_univ s
  rw [Fintype.card_fin] at h
  exact h

theorem sum_cntN_le (lbl : SLbl.Idx → BitVec 32) (b : Fin 8) : (∑ c : Fin 36, cntN lbl b c) ≤ 65536 := by
  have h : (∑ c : Fin 36, cntN lbl b c) = ∑ c' : Fin 36, if c'.val < 36 then cntN lbl b c' else 0 :=
    Finset.sum_congr rfl fun c' _ => (if_pos c'.isLt).symm
  rw [h, sum_lt_eq_card lbl b 36 (le_refl 36)]
  exact card_pixels_le _

theorem cntN_le (lbl : SLbl.Idx → BitVec 32) (b : Fin 8) (c : Fin 36) : cntN lbl b c ≤ 65536 := by
  rw [cntN_eq_card]
  exact card_pixels_le _

theorem offN_add_cntN_le (lbl : SLbl.Idx → BitVec 32) (b : Fin 8) (c : Fin 36) :
    offN lbl b c + cntN lbl b c ≤ 65536 := by
  rw [offN_eq_card, cntN_eq_card, ← Finset.card_union_of_disjoint]
  · exact card_pixels_le _
  · rw [Finset.disjoint_filter]
    intro n _ h1 h2
    omega

theorem offN_eq_sum (lbl : SLbl.Idx → BitVec 32) (b : Fin 8) (p : ℕ) (hp : p < 36) :
    offN lbl b ⟨p, hp⟩ = ∑ c' : Fin 36, if c'.val < p then cntN lbl b c' else 0 := rfl

end Cert.SpecFacts
-- ==== Proof.KValue.lean ====
import proofs.«422442_j10376640987314_2_alg».proof.Proof.FrameKI.Frame
import proofs.«422442_j10376640987314_2_alg».proof.Proof.KPayload
import proofs.«422442_j10376640987314_2_alg».proof.Proof.SpecFacts
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.Lib.Tactic

set_option maxRecDepth 16384

noncomputable section

namespace Cert.KValue

open Idealize.ShloMosaic Idealize.ShloMosaic.TcCoe Idealize.SL.Sem Idealize.ShloMosaic.ValueIdx
open Cert.KernelIdeal Cert.KernelIdeal.Gen Cert.KernelIdeal.Fr Cert.Spec
open Idealize.ShloMosaic.Pipeline (Dat)
open scoped BigOperators

def rowv (emb : SEmb.Idx → EReal) (b : Fin 8) (r : Fin 33) (n : Fin 65536) : EReal :=
  if h : r.val < 32 then emb (ix3 b ⟨r.val, h⟩ n) else 1

def ind (lbl : SLbl.Idx → BitVec 32) (b : Fin 8) (cl : Fin 36) (n : Fin 65536) : EReal :=
  if lbl (ix2 b n) = clsWord cl then 1 else 0

def acc (emb : SEmb.Idx → EReal) (lbl : SLbl.Idx → BitVec 32) (b : Fin 8) (r : Fin 33) (cl : Fin 36) : EReal :=
  ∑ n : Fin 65536, rowv emb b r n * ind lbl b cl n

/-- The accumulated sum over a batch's 65536 pixels is, from zero, the sum over the first half plus the sum over the second. -/
theorem acc_halves (emb : SEmb.Idx → EReal) (lbl : SLbl.Idx → BitVec 32) (b : Fin 8) (r : Fin 33) (cl : Fin 36) :
    (0 + ∑ n : Fin 32768, rowv emb b r ⟨n.val, by omega⟩ * ind lbl b cl ⟨n.val, by omega⟩)
        + ∑ n : Fin 32768, rowv emb b r ⟨32768 + n.val, by omega⟩ * ind lbl b cl ⟨32768 + n.val, by omega⟩
      = acc emb lbl b r cl := by
  rw [zero_add]
  exact (Cert.KPayload.sum_halves fun n => rowv emb b r n * ind lbl b cl n).symm

theorem acc_count (emb : SEmb.Idx → EReal) (lbl : SLbl.Idx → BitVec 32) (b : Fin 8) (cl : Fin 36) :
    acc emb lbl b ⟨32, by omega⟩ cl = (((cntN lbl b cl : ℕ) : ℝ) : EReal) := by
  unfold acc cntN
  rw [← Cert.SpecFacts.sum_indicator fun n : Fin 65536 => lbl (ix2 b n) = clsWord cl]
  refine Finset.sum_congr rfl fun n _ => ?_
  unfold rowv ind
  rw [dif_neg (by decide), one_mul]

theorem acc_feat (emb : SEmb.Idx → EReal) (lbl : SLbl.Idx → BitVec 32) (b : Fin 8) (d : Fin 32) (cl : Fin 36) :
    acc emb lbl b ⟨d.val, by omega⟩ cl = segSum emb lbl b cl d := by
  unfold acc segSum
  refine Finset.sum_congr rfl fun n _ => ?_
  unfold rowv ind
  rw [dif_pos d.isLt, mul_comm]

theorem mean_eq (emb : SEmb.Idx → EReal) (lbl : SLbl.Idx → BitVec 32) (b : Fin 8) (d : Fin 32) (cl : Fin 36) :
    Ideal.div (acc emb lbl b ⟨d.val, by omega⟩ cl) (max (acc emb lbl b ⟨32, by omega⟩ cl) (Ideal.ofBits .f32 0x3F800000#32))
      = segMean emb lbl b cl d := by
  rw [acc_feat, acc_count]; rfl

section AnyValues
variable {F : FTy → Type} [FloatOps F]
variable (m : (ℓ : Loc nD τ sig) → Buf (Elt F) ℓ)

theorem V_v2 (c : Dev nD) :
    (V m c main_v2 : S8x1x65536.Idx → BitVec 32)
      = shapeCast S8x1x65536 (V m c main_v1 : S8x65536.Idx → BitVec 32) shapeCasts_S8x65536_S8x1x65536 := by
  show StableHlo.after hostOps0 (fun b => m (c, b)) (Proc.devRef .tc main_v2) = shapeCast S8x1x65536 (StableHlo.after hostOps0 (fun b => m (c, b)) (Proc.devRef .tc main_v1)) _
  after_results
  rfl

theorem V_v2_apply (c : Dev nD) (b : Fin 8) (n : Fin 65536) :
    (V m c main_v2 : S8x1x65536.Idx → BitVec 32) (ix3 b 0 n) = (V m c main_v1 : S8x65536.Idx → BitVec 32) (ix2 b n) := by
  rw [V_v2]
  exact shapeCast_apply _ shapeCasts_S8x65536_S8x1x65536 (ix3 b 0 n) (ix2 b n) (by
    rw [Shape.rowMajor_val_two, Shape.rowMajor_val_three]
    show b.val * 65536 + n.val = (b.val * 1 + 0) * 65536 + n.val
    omega)

theorem idx_in : ∀ t : Fin cfg0.N,
    (win0_0.index t 0 = t.val / 2 ∧ win0_0.index t 1 = 0 ∧ win0_0.index t 2 = t.val % 2)
      ∧ (win0_1.index t 0 = t.val / 2 ∧ win0_1.index t 1 = 0 ∧ win0_1.index t 2 = t.val % 2) :=
  (by decide +kernel : ∀ t : Fin grid0.N,
    (win0_0.index t 0 = t.val / 2 ∧ win0_0.index t 1 = 0 ∧ win0_0.index t 2 = t.val % 2)
      ∧ (win0_1.index t 0 = t.val / 2 ∧ win0_1.index t 1 = 0 ∧ win0_1.index t 2 = t.val % 2))

theorem blk0_apply (c : Dev nD) (t : Fin cfg0.N) (d : Fin 32) (n : Fin 32768) (k : S8x32x65536.Idx)
    (hk0 : (k 0).val = t.val / 2) (hk1 : (k 1).val = d.val) (hk2 : (k 2).val = (t.val % 2) * 32768 + n.val) :
    (((cfg0.win 0).blk t).view.read (Elt F) (V m c (Pipeline.arrRef spec0 0)) : Vec F S1x32x32768 .f32) (ix3 0 d n)
      = (V m c main_v0 : S8x32x65536.Idx → Elt F .f32) k := by
  obtain ⟨⟨h0, h1, h2⟩, -⟩ := idx_in t
  rw [View.read_apply]
  show V m c main_v0 _ = V m c main_v0 _
  congr 1
  funext a
  apply Fin.ext
  match a with
  | ⟨0, _⟩ => show win0_0.index t 0 * 1 + 1 * 0 = (k 0).val; rw [h0, hk0]; omega
  | ⟨1, _⟩ => show win0_0.index t 1 * 32 + 1 * d.val = (k 1).val; rw [h1, hk1]; omega
  | ⟨2, _⟩ => show win0_0.index t 2 * 32768 + 1 * n.val = (k 2).val; rw [h2, hk2]; omega

theorem blk1_apply (c : Dev nD) (t : Fin cfg0.N) (n : Fin 32768) (k : S8x1x65536.Idx)
    (hk0 : (k 0).val = t.val / 2) (hk1 : (k 1).val = 0) (hk2 : (k 2).val = (t.val % 2) * 32768 + n.val) :
    (((cfg0.win 1).blk t).view.read (Elt F) (V m c (Pipeline.arrRef spec0 1)) : Vec F S1x1x32768 .i32) (ix3 0 0 n)
      = (V m c main_v2 : S8x1x65536.Idx → BitVec 32) k := by
  obtain ⟨-, h0, h1, h2⟩ := idx_in t
  rw [View.read_apply]
  show V m c main_v2 _ = V m c main_v2 _
  congr 1
  funext a
  apply Fin.ext
  match a with
  | ⟨0, _⟩ => show win0_1.index t 0 * 1 + 1 * 0 = (k 0).val; rw [h0, hk0]; omega
  | ⟨1, _⟩ => show win0_1.index t 1 * 1 + 1 * 0 = (k 1).val; rw [h1, hk1]
  | ⟨2, _⟩ => show win0_1.index t 2 * 32768 + 1 * n.val = (k 2).val; rw [h2, hk2]; omega

theorem iblk0_apply (c : Dev nD) (t : Fin cfg0.N) (d : Fin 32) (n : Fin 32768) (k : S8x32x65536.Idx)
    (hk0 : (k 0).val = t.val / 2) (hk1 : (k 1).val = d.val) (hk2 : (k 2).val = (t.val % 2) * 32768 + n.val) :
    (iblk m c 0 t : Vec F S1x32x32768 .f32) (ix3 0 d n) = (V m c main_v0 : S8x32x65536.Idx → Elt F .f32) k := by
  unfold iblk
  exact blk0_apply m c t d n k hk0 hk1 hk2
theorem iblk1_apply (c : Dev nD) (t : Fin cfg0.N) (n : Fin 32768) (b : Fin 8) (n' : Fin 65536)
    (hb : b.val = t.val / 2) (hn : n'.val = (t.val % 2) * 32768 + n.val) :
    (iblk m c 1 t : Vec F S1x1x32768 .i32) (ix3 0 0 n) = (V m c main_v1 : S8x65536.Idx → BitVec 32) (ix2 b n') := by
  unfold iblk
  exact (blk1_apply m c t n (ix3 b 0 n') hb rfl hn).trans (V_v2_apply m c b n')

theorem hz2 : (![0, 0] : Fin 2 → Nat) = fun _ => 0 := funext fun a => by fin_cases a <;> rfl
theorem hz3 : (![0, 0, 0] : Fin 3 → Nat) = fun _ => 0 := funext fun a => by fin_cases a <;> rfl

abbrev cntRow (S : Vec F S33x36 .f32) : Vec F S1x36 .f32 := View.ld S (Rect.unit (s := S33x36) ![32, 0] S1x36.size inb_S33x36_S1x36_32_0)
abbrev featRows (S : Vec F S33x36 .f32) : Vec F S32x36 .f32 := View.ld S (Rect.unit (s := S33x36) ![0, 0] S32x36.size inb_S33x36_S32x36_0_0)

section Pieces

variable (c : Dev nD) (i : grid0.Coords) (arg2 : Memref sig .tc .vmem S1x32x32768 .f32) (harg2 : arg2.IsWhole) (arg3 : Memref sig .tc .vmem S1x1x32768 .i32) (harg3 : arg3.IsWhole) (arg4 : Memref sig .tc .vmem S1x32x36 .f32) (harg4 : arg4.IsWhole) (arg5 : Memref sig .tc .vmem S1x1x36 .f32) (harg5 : arg5.IsWhole) (arg6 : Memref sig .tc .vmem S33x36 .f32) (harg6 : arg6.IsWhole)

theorem soutA_eq (hc0 : cond0_0 i) (hc1 : ¬cond0_1 i)
    (x0 : Vec F S1x32x32768 .f32) (x1 : Vec F S1x1x32768 .i32) :
    sout0_A_0 c i arg2 harg2 arg3 harg3 arg4 harg4 arg5 harg5 arg6 harg6 hc0 hc1 x0 x1 = k0_pay2 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S33x36) hz2, View.readCov_unit_zero (S := S33x36) _ hz2]
  simp only [View.readAt_eq_ld, harg2.read_unread, harg3.read_unread, View.ld_unit_zero (S := S1x32x32768) hz3, View.ld_unit_zero (S := S1x1x32768) hz3]

theorem soutB_eq (hc0 : ¬cond0_0 i) (hc1 : cond0_1 i)
    (x0 : Vec F S1x32x32768 .f32) (x1 : Vec F S1x1x32768 .i32) (xs0 : Vec F S33x36 .f32) :
    sout0_B_0 c i arg2 harg2 arg3 harg3 arg4 harg4 arg5 harg5 arg6 harg6 hc0 hc1 x0 x1 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1x32x32768) hz3, View.ld_unit_zero (S := S1x1x32768) hz3, View.ld_unit_zero (S := S33x36) hz2]

theorem outB2_eq (hc0 : ¬cond0_0 i) (hc1 : cond0_1 i)
    (x0 : Vec F S1x32x32768 .f32) (x1 : Vec F S1x1x32768 .i32) (xs0 : Vec F S33x36 .f32) :
    out0_B_2 c i arg2 harg2 arg3 harg3 arg4 harg4 arg5 harg5 arg6 harg6 hc0 hc1 x0 x1 xs0 = k0_pay3 (cntRow (k0_pay2 x0 x1 xs0)) (featRows (k0_pay2 x0 x1 xs0)) := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  simp only [View.readAt_eq_ld, harg2.read_unread, harg3.read_unread, harg6.read_unread, View.ld_unit_zero (S := S1x32x32768) hz3, View.ld_unit_zero (S := S1x1x32768) hz3, View.ld_unit_zero (S := S33x36) hz2]
  rw [View.canon_unit_zero hz3]
  have hcov : ∀ y : S33x36.Idx, ∃ p ∈ [(⟨Rect.unit ![0, 0] S33x36.size inb_S33x36_S33x36_0_0, k0_pay2 x0 x1 xs0⟩ : View.Piece (Elt F) S33x36 .f32)], y ∈ p.1.set :=
    fun y => ⟨_, List.mem_singleton_self _, View.mem_set_unit_zero hz2 inb_S33x36_S33x36_0_0 y⟩
  rw [View.readCov_eq_canon_ld _ _ _ hcov, View.readCov_eq_canon_ld _ _ _ hcov, View.canon_unit_zero hz2]

theorem outB3_eq (hc0 : ¬cond0_0 i) (hc1 : cond0_1 i)
    (x0 : Vec F S1x32x32768 .f32) (x1 : Vec F S1x1x32768 .i32) (xs0 : Vec F S33x36 .f32) :
    out0_B_3 c i arg2 harg2 arg3 harg3 arg4 harg4 arg5 harg5 arg6 harg6 hc0 hc1 x0 x1 xs0 = k0_pay4 (cntRow (k0_pay2 x0 x1 xs0)) := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  simp only [View.readAt_eq_ld, harg2.read_unread, harg3.read_unread, harg6.read_unread, View.ld_unit_zero (S := S1x32x32768) hz3, View.ld_unit_zero (S := S1x1x32768) hz3, View.ld_unit_zero (S := S33x36) hz2]
  rw [View.canon_unit_zero hz3]
  have hcov : ∀ y : S33x36.Idx, ∃ p ∈ [(⟨Rect.unit ![0, 0] S33x36.size inb_S33x36_S33x36_0_0, k0_pay2 x0 x1 xs0⟩ : View.Piece (Elt F) S33x36 .f32)], y ∈ p.1.set :=
    fun y => ⟨_, List.mem_singleton_self _, View.mem_set_unit_zero hz2 inb_S33x36_S33x36_0_0 y⟩
  rw [View.readCov_eq_canon_ld _ _ _ hcov, View.canon_unit_zero hz2]

end Pieces

abbrev xblk (c : Dev nD) (t : Fin cfg0.N) : Vec F S1x32x32768 .f32 := iblk m c 0 t
abbrev lblk (c : Dev nD) (t : Fin cfg0.N) : Vec F S1x1x32768 .i32 := iblk m c 1 t

abbrev prev (t : Fin cfg0.N) : Fin cfg0.N := ⟨t.val - 1, Nat.lt_of_le_of_lt (Nat.sub_le _ _) t.isLt⟩

abbrev scrB (c : Dev nD) (t : Fin cfg0.N) : Vec F S33x36 .f32 :=
  k0_pay2 (xblk m c t) (lblk m c t) (k0_pay2 (xblk m c (prev t)) (lblk m c (prev t)) k0_pay1)

theorem scr_even (c : Dev nD) (t : Fin cfg0.N) (h0 : t.val % 2 = 0) :
    (outsAt0 m c t.val t.isLt).2.2 = k0_pay2 (xblk m c t) (lblk m c t) k0_pay1 := by
  rw [outsAt0_A m c t h0]
  dsimp only
  exact soutA_eq (F := F) c (grid0.coords t) (ms0_0 t) (hs0_0 t) (ms0_1 t) (hs0_1 t) (ms0_2 t) (hs0_2 t) (ms0_3 t) (hs0_3 t) scM0_0 (Memref.isWhole_whole _) (c0_of_even t h0) (not_c1_of_even t h0) (xblk m c t) (lblk m c t)

theorem out2_odd (c : Dev nD) (t : Fin cfg0.N) (h0 : ¬t.val % 2 = 0) :
    (outsAt0 m c t.val t.isLt).1 = k0_pay3 (cntRow (scrB m c t)) (featRows (scrB m c t)) := by
  rw [outsAt0_B m c t h0]
  dsimp only
  refine (outB2_eq (F := F) c (grid0.coords t) (ms0_0 t) (hs0_0 t) (ms0_1 t) (hs0_1 t) (ms0_2 t) (hs0_2 t) (ms0_3 t) (hs0_3 t) scM0_0 (Memref.isWhole_whole _) (not_c0_of_odd t h0) (c1_of_odd t h0) (xblk m c t) (lblk m c t) (outsAt0 m c (t.val - 1) (Nat.lt_of_le_of_lt (Nat.sub_le _ _) t.isLt)).2.2).trans ?_
  rw [scr_even m c (prev t) (by show (t.val - 1) % 2 = 0; omega)]

theorem out3_odd (c : Dev nD) (t : Fin cfg0.N) (h0 : ¬t.val % 2 = 0) :
    (outsAt0 m c t.val t.isLt).2.1 = k0_pay4 (cntRow (scrB m c t)) := by
  rw [outsAt0_B m c t h0]
  dsimp only
  refine (outB3_eq (F := F) c (grid0.coords t) (ms0_0 t) (hs0_0 t) (ms0_1 t) (hs0_1 t) (ms0_2 t) (hs0_2 t) (ms0_3 t) (hs0_3 t) scM0_0 (Memref.isWhole_whole _) (not_c0_of_odd t h0) (c1_of_odd t h0) (xblk m c t) (lblk m c t) (outsAt0 m c (t.val - 1) (Nat.lt_of_le_of_lt (Nat.sub_le _ _) t.isLt)).2.2).trans ?_
  rw [scr_even m c (prev t) (by show (t.val - 1) % 2 = 0; omega)]

end AnyValues

section AtIdeal
variable (m : (ℓ : Loc nD τ sig) → Buf (Elt Ideal) ℓ)

abbrev emb (c : Dev nD) : SEmb.Idx → EReal := V m c main_v0
abbrev lbl (c : Dev nD) : SLbl.Idx → BitVec 32 := V m c main_v1

theorem term_eq (c : Dev nD) (t : Fin cfg0.N) (b : Fin 8) (hb : b.val = t.val / 2) (r : Fin 33) (cl : Fin 36)
    (n : Fin 32768) (n' : Fin 65536) (hn : n'.val = (t.val % 2) * 32768 + n.val) :
    (if h : r.val < 32 then xblk m c t (ix3 0 ⟨r.val, h⟩ n) else (1 : EReal)) * (if lblk m c t (ix3 0 0 n) = clsWord cl then (1 : EReal) else 0)
      = rowv (emb m c) b r n' * ind (lbl m c) b cl n' := by
  unfold rowv ind
  have e1 : lblk m c t (ix3 0 0 n) = lbl m c (ix2 b n') := iblk1_apply m c t n b n' hb hn
  rw [e1]
  refine congrArg₂ (fun x y : EReal => x * y) ?_ rfl
  by_cases h : r.val < 32
  · rw [dif_pos h, dif_pos h]
    exact iblk0_apply m c t ⟨r.val, h⟩ n (ix3 b ⟨r.val, h⟩ n') hb rfl hn
  · rw [dif_neg h, dif_neg h]

theorem scrB_apply (c : Dev nD) (t : Fin cfg0.N) (h0 : ¬t.val % 2 = 0) (b : Fin 8) (hb : b.val = t.val / 2) (r : Fin 33) (cl : Fin 36) :
    scrB m c t (ix2 r cl) = acc (emb m c) (lbl m c) b r cl := by
  have hpb : b.val = (prev t).val / 2 := by show b.val = (t.val - 1) / 2; omega
  refine (Cert.KPayload.pay2_apply (xblk m c t) (lblk m c t) _ r cl).trans ?_
  rw [Cert.KPayload.pay2_apply (xblk m c (prev t)) (lblk m c (prev t)) (k0_pay1 (F := Ideal)) r cl, Cert.KPayload.pay1_apply, ← acc_halves]
  refine congrArg₂ (fun x y : EReal => x + y) (congrArg (fun x : EReal => 0 + x) (Finset.sum_congr rfl fun n _ => ?_)) (Finset.sum_congr rfl fun n _ => ?_)
  · exact term_eq m c (prev t) b hpb r cl n ⟨n.val, by omega⟩ (by show n.val = ((t.val - 1) % 2) * 32768 + n.val; omega)
  · exact term_eq m c t b hb r cl n ⟨32768 + n.val, by omega⟩ (by show 32768 + n.val = (t.val % 2) * 32768 + n.val; omega)

theorem cntRow_apply (S : Vec Ideal S33x36 .f32) (cl : Fin 36) : cntRow S (ix2 0 cl) = S (ix2 ⟨32, by omega⟩ cl) :=
  congrArg S (funext fun a => Fin.ext (match a with
    | ⟨0, _⟩ => rfl
    | ⟨1, _⟩ => by show 0 + 1 * cl.val = cl.val; omega))
theorem featRows_apply (S : Vec Ideal S33x36 .f32) (d : Fin 32) (cl : Fin 36) : featRows S (ix2 d cl) = S (ix2 ⟨d.val, by omega⟩ cl) :=
  congrArg S (funext fun a => Fin.ext (match a with
    | ⟨0, _⟩ => by show 0 + 1 * d.val = d.val; omega
    | ⟨1, _⟩ => by show 0 + 1 * cl.val = cl.val; omega))

theorem out2_apply (c : Dev nD) (t : Fin cfg0.N) (h0 : ¬t.val % 2 = 0) (b : Fin 8) (hb : b.val = t.val / 2) (d : Fin 32) (cl : Fin 36) :
    (outsAt0 m c t.val t.isLt).1 (ix3 0 d cl) = segMean (emb m c) (lbl m c) b cl d := by
  rw [out2_odd m c t h0]
  refine (Cert.KPayload.pay3_apply _ _ d cl).trans ?_
  rw [featRows_apply, cntRow_apply, scrB_apply m c t h0 b hb, scrB_apply m c t h0 b hb]
  exact mean_eq (emb m c) (lbl m c) b d cl

theorem out3_apply (c : Dev nD) (t : Fin cfg0.N) (h0 : ¬t.val % 2 = 0) (b : Fin 8) (hb : b.val = t.val / 2) (cl : Fin 36) :
    (outsAt0 m c t.val t.isLt).2.1 (ix3 0 0 cl) = (((cntN (lbl m c) b cl : ℕ) : ℝ) : EReal) := by
  rw [out3_odd m c t h0]
  refine (Cert.KPayload.pay4_apply _ cl).trans ?_
  rw [cntRow_apply, scrB_apply m c t h0 b hb]
  exact acc_count (emb m c) (lbl m c) b cl

abbrev segArr (c : Dev nD) : S8x32x36.Idx → EReal := fun i => segMean (emb m c) (lbl m c) (i 0) (i 2) (i 1)
abbrev cntArr (c : Dev nD) : S8x1x36.Idx → EReal := fun i => (((cntN (lbl m c) (i 0) (i 2) : ℕ) : ℝ) : EReal)

theorem idx_out : ∀ t : Fin cfg0.N,
    (win0_2.index t 0 = t.val / 2 ∧ win0_2.index t 1 = 0 ∧ win0_2.index t 2 = 0)
      ∧ (win0_3.index t 0 = t.val / 2 ∧ win0_3.index t 1 = 0 ∧ win0_3.index t 2 = 0) :=
  (by decide +kernel : ∀ t : Fin grid0.N,
    (win0_2.index t 0 = t.val / 2 ∧ win0_2.index t 1 = 0 ∧ win0_2.index t 2 = 0)
      ∧ (win0_3.index t 0 = t.val / 2 ∧ win0_3.index t 1 = 0 ∧ win0_3.index t 2 = 0))

theorem out2_block (c : Dev nD) (t : Fin cfg0.N) (h0 : ¬t.val % 2 = 0) (j : S1x32x36.Idx) (i : S8x32x36.Idx)
    (hi0 : (i 0).val = t.val / 2) (hi1 : (i 1).val = (j 1).val) (hi2 : (i 2).val = (j 2).val) :
    (outsAt0 m c t.val t.isLt).1 j = segArr m c i := by
  obtain ⟨u, d, cl, rfl⟩ : ∃ (u : Fin 1) (d : Fin 32) (cl : Fin 36), j = ix3 u d cl := ⟨j 0, j 1, j 2, eq_ix3 j⟩
  obtain rfl : u = 0 := Subsingleton.elim _ _
  obtain ⟨b, d', cl', rfl⟩ : ∃ (b : Fin 8) (d' : Fin 32) (cl' : Fin 36), i = ix3 b d' cl' := ⟨i 0, i 1, i 2, eq_ix3 i⟩
  refine (out2_apply m c t h0 b hi0 d cl).trans ?_
  rw [show d' = d from Fin.ext hi1, show cl' = cl from Fin.ext hi2]

theorem out3_block (c : Dev nD) (t : Fin cfg0.N) (h0 : ¬t.val % 2 = 0) (j : S1x1x36.Idx) (i : S8x1x36.Idx)
    (hi0 : (i 0).val = t.val / 2) (hi2 : (i 2).val = (j 2).val) :
    (outsAt0 m c t.val t.isLt).2.1 j = cntArr m c i := by
  obtain ⟨u, v, cl, rfl⟩ : ∃ (u : Fin 1) (v : Fin 1) (cl : Fin 36), j = ix3 u v cl := ⟨j 0, j 1, j 2, eq_ix3 j⟩
  obtain rfl : u = 0 := Subsingleton.elim _ _
  obtain rfl : v = 0 := Subsingleton.elim _ _
  obtain ⟨b, v', cl', rfl⟩ : ∃ (b : Fin 8) (v' : Fin 1) (cl' : Fin 36), i = ix3 b v' cl' := ⟨i 0, i 1, i 2, eq_ix3 i⟩
  refine (out3_apply m c t h0 b hi0 cl).trans ?_
  rw [show cl' = cl from Fin.ext hi2]

theorem flushed2_eq (c : Dev nD) (t : Fin cfg0.N) (hf : (cfg0.win 2).flush t = true) :
    (dats m 0 c).flushed 2 t = ((cfg0.win 2).blk t).view.read (Elt Ideal) (segArr m c) := by
  have h0 : ¬t.val % 2 = 0 := by have := (flush0_2 t).mp hf; omega
  obtain ⟨⟨e0, e1, e2⟩, -⟩ := idx_out t
  show (cfg0.win 2).cut (grid0.coords t) ((dats m 0 c).after 2 t) = _
  rw [after0_2]
  funext j
  show (outsAt0 m c t.val t.isLt).1 j = segArr m c (((cfg0.win 2).blk t).view.emb j)
  refine out2_block m c t h0 j _ ?_ ?_ ?_
  · show win0_2.index t 0 * 1 + 1 * (j 0).val = t.val / 2
    have hj : (j 0).val < 1 := (j 0).isLt
    rw [e0]; omega
  · show win0_2.index t 1 * 32 + 1 * (j 1).val = (j 1).val
    rw [e1]; omega
  · show win0_2.index t 2 * 36 + 1 * (j 2).val = (j 2).val
    rw [e2]; omega

theorem flushed3_eq (c : Dev nD) (t : Fin cfg0.N) (hf : (cfg0.win 3).flush t = true) :
    (dats m 0 c).flushed 3 t = ((cfg0.win 3).blk t).view.read (Elt Ideal) (cntArr m c) := by
  have h0 : ¬t.val % 2 = 0 := by have := (flush0_3 t).mp hf; omega
  obtain ⟨-, e0, e1, e2⟩ := idx_out t
  show (cfg0.win 3).cut (grid0.coords t) ((dats m 0 c).after 3 t) = _
  rw [after0_3]
  funext j
  show (outsAt0 m c t.val t.isLt).2.1 j = cntArr m c (((cfg0.win 3).blk t).view.emb j)
  refine out3_block m c t h0 j _ ?_ ?_
  · show win0_3.index t 0 * 1 + 1 * (j 0).val = t.val / 2
    have hj : (j 0).val < 1 := (j 0).isLt
    rw [e0]; omega
  · show win0_3.index t 2 * 36 + 1 * (j 2).val = (j 2).val
    rw [e2]; omega

theorem mem_blk2 (t : Fin cfg0.N) (i : S8x32x36.Idx) :
    i ∈ ((cfg0.win 2).blk t).view.set ↔ ∀ a : Fin 3, win0_2.index t a * S1x32x36.size a ≤ (i a).val ∧ (i a).val < win0_2.index t a * S1x32x36.size a + S1x32x36.size a := by
  show i ∈ ((View.whole main_v3_0).slice (win0_2.rect t)).set ↔ _
  rw [View.set_slice_whole, Rect.mem_set_unit]
  exact Iff.rfl
theorem mem_blk3 (t : Fin cfg0.N) (i : S8x1x36.Idx) :
    i ∈ ((cfg0.win 3).blk t).view.set ↔ ∀ a : Fin 3, win0_3.index t a * S1x1x36.size a ≤ (i a).val ∧ (i a).val < win0_3.index t a * S1x1x36.size a + S1x1x36.size a := by
  show i ∈ ((View.whole main_v3_1).slice (win0_3.rect t)).set ↔ _
  rw [View.set_slice_whole, Rect.mem_set_unit]
  exact Iff.rfl

theorem cover2 (i : S8x32x36.Idx) : ∃ t : Fin cfg0.N, (cfg0.win 2).flush t = true ∧ i ∈ ((cfg0.win 2).blk t).view.set := by
  have hN : cfg0.N = 16 := N_0
  have hi0 : (i 0).val < 8 := (i 0).isLt
  have hi1 : (i 1).val < 32 := (i 1).isLt
  have hi2 : (i 2).val < 36 := (i 2).isLt
  have ht : 2 * (i 0).val + 1 < cfg0.N := by rw [hN]; omega
  obtain ⟨⟨e0, e1, e2⟩, -⟩ := idx_out ⟨2 * (i 0).val + 1, ht⟩
  refine ⟨⟨2 * (i 0).val + 1, ht⟩, (flush0_2 _).mpr (by show (2 * (i 0).val + 1) % 2 = 1; omega), ?_⟩
  rw [mem_blk2]
  intro a
  match a with
  | ⟨0, _⟩ => show win0_2.index ⟨2 * (i 0).val + 1, ht⟩ 0 * 1 ≤ (i 0).val ∧ (i 0).val < win0_2.index ⟨2 * (i 0).val + 1, ht⟩ 0 * 1 + 1
              rw [e0]; show (2 * (i 0).val + 1) / 2 * 1 ≤ (i 0).val ∧ (i 0).val < (2 * (i 0).val + 1) / 2 * 1 + 1; omega
  | ⟨1, _⟩ => show win0_2.index ⟨2 * (i 0).val + 1, ht⟩ 1 * 32 ≤ (i 1).val ∧ (i 1).val < win0_2.index ⟨2 * (i 0).val + 1, ht⟩ 1 * 32 + 32
              rw [e1]; omega
  | ⟨2, _⟩ => show win0_2.index ⟨2 * (i 0).val + 1, ht⟩ 2 * 36 ≤ (i 2).val ∧ (i 2).val < win0_2.index ⟨2 * (i 0).val + 1, ht⟩ 2 * 36 + 36
              rw [e2]; omega
theorem cover3 (i : S8x1x36.Idx) : ∃ t : Fin cfg0.N, (cfg0.win 3).flush t = true ∧ i ∈ ((cfg0.win 3).blk t).view.set := by
  have hN : cfg0.N = 16 := N_0
  have hi0 : (i 0).val < 8 := (i 0).isLt
  have hi1 : (i 1).val < 1 := (i 1).isLt
  have hi2 : (i 2).val < 36 := (i 2).isLt
  have ht : 2 * (i 0).val + 1 < cfg0.N := by rw [hN]; omega
  obtain ⟨-, e0, e1, e2⟩ := idx_out ⟨2 * (i 0).val + 1, ht⟩
  refine ⟨⟨2 * (i 0).val + 1, ht⟩, (flush0_3 _).mpr (by show (2 * (i 0).val + 1) % 2 = 1; omega), ?_⟩
  rw [mem_blk3]
  intro a
  match a with
  | ⟨0, _⟩ => show win0_3.index ⟨2 * (i 0).val + 1, ht⟩ 0 * 1 ≤ (i 0).val ∧ (i 0).val < win0_3.index ⟨2 * (i 0).val + 1, ht⟩ 0 * 1 + 1
              rw [e0]; show (2 * (i 0).val + 1) / 2 * 1 ≤ (i 0).val ∧ (i 0).val < (2 * (i 0).val + 1) / 2 * 1 + 1; omega
  | ⟨1, _⟩ => show win0_3.index ⟨2 * (i 0).val + 1, ht⟩ 1 * 1 ≤ (i 1).val ∧ (i 1).val < win0_3.index ⟨2 * (i 0).val + 1, ht⟩ 1 * 1 + 1
              rw [e1]; omega
  | ⟨2, _⟩ => show win0_3.index ⟨2 * (i 0).val + 1, ht⟩ 2 * 36 ≤ (i 2).val ∧ (i 2).val < win0_3.index ⟨2 * (i 0).val + 1, ht⟩ 2 * 36 + 36
              rw [e2]; omega

/-- After the run the first result array holds the class means. -/
theorem final2 (c : Dev nD) : (dats m 0 c).arrAt 2 cfg0.N = segArr m c :=
  (dats m 0 c).arrAt_eq_of_cover 2 (segArr m c) (flushed2_eq m c) cover2
/-- After the run the second result array holds the class counts. -/
theorem final3 (c : Dev nD) : (dats m 0 c).arrAt 3 cfg0.N = cntArr m c :=
  (dats m 0 c).arrAt_eq_of_cover 3 (cntArr m c) (flushed3_eq m c) cover3

theorem cnt_final (m : (ℓ : Loc nD τ sig) → Buf (Elt Ideal) ℓ) (c : Dev nD) (b : Fin 8) (cl : Fin 36) :
    ((dats m 0 c).arrAt 3 cfg0.N : FVec Ideal S8x1x36 .f32) (ix3 b 0 cl) = (((cntN (V m c main_v1) b cl : ℕ) : ℝ) : EReal) := by
  rw [final3]

theorem seg_final (m : (ℓ : Loc nD τ sig) → Buf (Elt Ideal) ℓ) (c : Dev nD) (b : Fin 8) (d : Fin 32) (cl : Fin 36) :
    ((dats m 0 c).arrAt 2 cfg0.N : FVec Ideal S8x32x36 .f32) (ix3 b d cl) = segMean (V m c main_v0) (V m c main_v1) b cl d := by
  rw [final2]

end AtIdeal

end Cert.KValue

end
-- ==== Proof.LossCongr.lean ====
import proofs.«422442_j10376640987314_2_alg».proof.Proof.Loss
import Idealize.ShloMosaic.Lib.ValueIdx
import Idealize.ShloMosaic.Lib.Pipeline.Value
import Idealize.ShloMosaic.PureOps.Ideal.Laws

noncomputable section

namespace Cert.LossCongr

open Idealize.ShloMosaic Idealize.ShloMosaic.ValueIdx Cert.ReferenceIdeal Cert.ReferenceIdeal.Gen Cert.Loss

def RowEq (b : Fin 8) (p : Fin 1800) (A A' : FVec Ideal S8x1800x36 .f32) : Prop :=
  ∀ c : Fin 36, A (ix3 b p c) = A' (ix3 b p c)

theorem lhsIdx_0 (i : S8x1800x36.Idx) (q : dot_S8x1800x32_S8x36x32_S8x1800x36_2_2_1_1_0_0.contr.Idx) :
    (dot_S8x1800x32_S8x36x32_S8x1800x36_2_2_1_1_0_0.lhsIdx i q 0).val = (i 0).val := by
  unfold DotDims.lhsIdx
  rw [dif_pos (show (0 : Fin S8x1800x32.rank) ∈ dot_S8x1800x32_S8x36x32_S8x1800x36_2_2_1_1_0_0.lhsBatch by decide)]
  rfl

theorem lhsIdx_1 (i : S8x1800x36.Idx) (q : dot_S8x1800x32_S8x36x32_S8x1800x36_2_2_1_1_0_0.contr.Idx) :
    (dot_S8x1800x32_S8x36x32_S8x1800x36_2_2_1_1_0_0.lhsIdx i q 1).val = (i 1).val := by
  unfold DotDims.lhsIdx
  rw [dif_neg (show ¬(1 : Fin S8x1800x32.rank) ∈ dot_S8x1800x32_S8x36x32_S8x1800x36_2_2_1_1_0_0.lhsBatch by decide),
    dif_pos (show (1 : Fin S8x1800x32.rank) ∈ dot_S8x1800x32_S8x36x32_S8x1800x36_2_2_1_1_0_0.lhsNonContracting by decide)]
  rfl

theorem dot_row (pixx pixx' : FVec Ideal S8x1800x32 .f32) (seg : FVec Ideal S8x36x32 .f32) (b : Fin 8) (p : Fin 1800)
    (h : ∀ d : Fin 32, pixx (ix3 b p d) = pixx' (ix3 b p d)) :
    RowEq b p (Host.dotGeneral (F := Ideal) dot_S8x1800x32_S8x36x32_S8x1800x36_2_2_1_1_0_0 none pixx seg)
      (Host.dotGeneral (F := Ideal) dot_S8x1800x32_S8x36x32_S8x1800x36_2_2_1_1_0_0 none pixx' seg) := by
  intro c
  simp only [Host.dotGeneral]
  rw [Ideal.dotGeneral_apply, Ideal.dotGeneral_apply]
  refine Finset.sum_congr rfl fun q _ => ?_
  let k : Fin 32 := ⟨(dot_S8x1800x32_S8x36x32_S8x1800x36_2_2_1_1_0_0.lhsIdx (ix3 b p c) q 2).val,
    (dot_S8x1800x32_S8x36x32_S8x1800x36_2_2_1_1_0_0.lhsIdx (ix3 b p c) q 2).isLt⟩
  have el : dot_S8x1800x32_S8x36x32_S8x1800x36_2_2_1_1_0_0.lhsIdx (ix3 b p c) q = ix3 b p k := funext fun a => Fin.ext (by
    match a with
    | ⟨0, _⟩ => exact lhsIdx_0 _ _
    | ⟨1, _⟩ => exact lhsIdx_1 _ _
    | ⟨2, _⟩ => rfl)
  rw [el]
  exact congrArg (· * _) (h k)

namespace RowEq

variable {b : Fin 8} {p : Fin 1800}

theorem rfl' (A : FVec Ideal S8x1800x36 .f32) : RowEq b p A A := fun _ => rfl

theorem hostDivf {A A' B B' : FVec Ideal S8x1800x36 .f32} (hA : RowEq b p A A') (hB : RowEq b p B B') :
    RowEq b p (Host.divf A B) (Host.divf A' B') := fun c => by
  show Ideal.div (A _) (B _) = Ideal.div (A' _) (B' _)
  rw [hA c, hB c]

theorem subf {A A' B B' : FVec Ideal S8x1800x36 .f32} (hA : RowEq b p A A') (hB : RowEq b p B B') :
    RowEq b p (Idealize.ShloMosaic.subf A B) (Idealize.ShloMosaic.subf A' B') := fun c => by
  rw [subf_apply, subf_apply, hA c, hB c]

theorem mulf {A A' B B' : FVec Ideal S8x1800x36 .f32} (hA : RowEq b p A A') (hB : RowEq b p B B') :
    RowEq b p (Idealize.ShloMosaic.mulf A B) (Idealize.ShloMosaic.mulf A' B') := fun c => by
  rw [mulf_apply, mulf_apply, hA c, hB c]

theorem addf {A A' B B' : FVec Ideal S8x1800x36 .f32} (hA : RowEq b p A A') (hB : RowEq b p B B') :
    RowEq b p (Idealize.ShloMosaic.addf A B) (Idealize.ShloMosaic.addf A' B') := fun c => by
  rw [addf_apply, addf_apply, hA c, hB c]

theorem select (m : IVec S8x1800x36 1) {A A' B B' : FVec Ideal S8x1800x36 .f32} (hA : RowEq b p A A') (hB : RowEq b p B B') :
    RowEq b p (Idealize.ShloMosaic.select m A B) (Idealize.ShloMosaic.select m A' B') := fun c => by
  rw [select_apply, select_apply, hA c, hB c]

theorem exp {A A' : FVec Ideal S8x1800x36 .f32} (hA : RowEq b p A A') : RowEq b p (Host.exp A) (Host.exp A') := fun c => by
  show FloatOps.hostUnary .exp (A _) = FloatOps.hostUnary .exp (A' _)
  rw [hA c]

theorem log {A A' : FVec Ideal S8x1800x36 .f32} (hA : RowEq b p A A') : RowEq b p (Host.log A) (Host.log A') := fun c => by
  show FloatOps.hostUnary .log (A _) = FloatOps.hostUnary .log (A' _)
  rw [hA c]

end RowEq

theorem lift_d2 (h : S8x1800x36.Reduces [2] S8x1800) (b : Fin 8) (p : Fin 1800) (k : Fin (S8x1800x36.size 2)) :
    h.lift (ix2 b p) k = ix3 b p (⟨k.val, k.isLt⟩ : Fin 36) := by
  funext a; apply Fin.ext
  match a with | ⟨0, _⟩ => rfl | ⟨1, _⟩ => rfl | ⟨2, _⟩ => rfl

theorem reduceMax_row {b : Fin 8} {p : Fin 1800} {A A' : FVec Ideal S8x1800x36 .f32} (init : FVec Ideal S_ .f32)
    (hA : RowEq b p A A') :
    Host.reduce FloatOps.maximumf A init reducesTo_S8x1800x36_S8x1800_d2 h_S_ (ix2 b p)
      = Host.reduce FloatOps.maximumf A' init reducesTo_S8x1800x36_S8x1800_d2 h_S_ (ix2 b p) := by
  have hr : S8x1800x36.Reduces [2] S8x1800 := by decide
  rw [Host.reduce_eq_fold_single FloatOps.maximumf A _ reducesTo_S8x1800x36_S8x1800_d2 hr h_S_,
    Host.reduce_eq_fold_single FloatOps.maximumf A' _ reducesTo_S8x1800x36_S8x1800_d2 hr h_S_]
  have e : A ∘ hr.lift (ix2 b p) = A' ∘ hr.lift (ix2 b p) := funext fun k => by
    show A (hr.lift (ix2 b p) k) = A' (hr.lift (ix2 b p) k)
    rw [lift_d2]; exact hA _
  rw [e]

theorem reduceAdd_row {b : Fin 8} {p : Fin 1800} {A A' : FVec Ideal S8x1800x36 .f32} (init : FVec Ideal S_ .f32)
    (hA : RowEq b p A A') :
    Host.reduceAdd A init reducesTo_S8x1800x36_S8x1800_d2 h_S_ (ix2 b p)
      = Host.reduceAdd A' init reducesTo_S8x1800x36_S8x1800_d2 h_S_ (ix2 b p) := by
  have hr : S8x1800x36.Reduces [2] S8x1800 := by decide
  simp only [Host.reduceAdd, Ideal.hostReduceAdd_def]
  rw [Ideal.hostReduceAdd_single reducesTo_S8x1800x36_S8x1800_d2 hr, Ideal.hostReduceAdd_single reducesTo_S8x1800x36_S8x1800_d2 hr]
  refine congrArg (_ + ·) (Finset.sum_congr rfl fun k _ => ?_)
  rw [lift_d2]; exact hA _

theorem bcastBack_apply (v : FVec Ideal S8x1800 .f32) (b : Fin 8) (p : Fin 1800) (c : Fin 36) :
    broadcastInDim S8x1800x36 ![0, 1, 2] bcast_S8x1800x1_S8x1800x36_0_1_2
      (broadcastInDim S8x1800x1 ![0, 1] bcast_S8x1800_S8x1800x1_0_1 v) (ix3 b p c) = v (ix2 b p) := by
  rw [broadcastInDim_apply _ bcast_S8x1800x1_S8x1800x36_0_1_2 _ (ix3 b p c) (ix3 b p (0 : Fin 1)) (fun a => match a with
    | ⟨0, _⟩ => by show b.val = if (8 : Nat) = 1 then 0 else b.val; rw [if_neg (by decide)]
    | ⟨1, _⟩ => by show p.val = if (1800 : Nat) = 1 then 0 else p.val; rw [if_neg (by decide)]
    | ⟨2, _⟩ => by show 0 = if (1 : Nat) = 1 then 0 else c.val; rw [if_pos rfl])]
  exact broadcastInDim_apply _ bcast_S8x1800_S8x1800x1_0_1 v (ix3 b p (0 : Fin 1)) (ix2 b p) (fun a => match a with
    | ⟨0, _⟩ => by show b.val = if (8 : Nat) = 1 then 0 else b.val; rw [if_neg (by decide)]
    | ⟨1, _⟩ => by show p.val = if (1800 : Nat) = 1 then 0 else p.val; rw [if_neg (by decide)])

theorem bcastBack_row {b : Fin 8} {p : Fin 1800} {v v' : FVec Ideal S8x1800 .f32} (hv : v (ix2 b p) = v' (ix2 b p)) :
    RowEq b p (broadcastInDim S8x1800x36 ![0, 1, 2] bcast_S8x1800x1_S8x1800x36_0_1_2 (broadcastInDim S8x1800x1 ![0, 1] bcast_S8x1800_S8x1800x1_0_1 v))
      (broadcastInDim S8x1800x36 ![0, 1, 2] bcast_S8x1800x1_S8x1800x36_0_1_2 (broadcastInDim S8x1800x1 ![0, 1] bcast_S8x1800_S8x1800x1_0_1 v')) := fun c => by
  rw [bcastBack_apply, bcastBack_apply, hv]

theorem shifted_row (pixx pixx' : FVec Ideal S8x1800x32 .f32) (seg : FVec Ideal S8x36x32 .f32) (valid : IVec S8x36 1) (b : Fin 8) (p : Fin 1800)
    (h : ∀ d : Fin 32, pixx (ix3 b p d) = pixx' (ix3 b p d)) :
    RowEq b p (shifted (F := Ideal) pixx seg valid) (shifted (F := Ideal) pixx' seg valid) := by
  have h63 := RowEq.hostDivf (dot_row pixx pixx' seg b p h)
    (RowEq.rfl' (broadcastInDim S8x1800x36 ![] bcast_S_S8x1800x36 (constant (F := Ideal) S_ .f32 0x3DCCCCCD#32)))
  unfold shifted
  exact RowEq.subf h63 (bcastBack_row (reduceMax_row _ (RowEq.select _ h63 (RowEq.rfl' _))))

theorem slot_final (K M : FVec Ideal S8x1800 .f32) {X X' : FVec Ideal S8x1800 .f32} {b : Fin 8} {p : Fin 1800}
    (hX : X (ix2 b p) = X' (ix2 b p)) :
    mulf K (Host.divf X M) (ix2 b p) = mulf K (Host.divf X' M) (ix2 b p) := by
  show K _ * Ideal.div (X _) (M _) = K _ * Ideal.div (X' _) (M _)
  rw [hX]

/-- The per-slot loss at slot (b, p) depends on the sampled rows only through row (b, p). -/
theorem lossRows_local (pixx pixx' : FVec Ideal S8x1800x32 .f32) (seg : FVec Ideal S8x36x32 .f32) (valid : IVec S8x36 1) (b : Fin 8) (p : Fin 1800)
    (h : ∀ d : Fin 32, pixx (ix3 b p d) = pixx' (ix3 b p d)) :
    lossRows (F := Ideal) pixx seg valid (ix2 b p) = lossRows (F := Ideal) pixx' seg valid (ix2 b p) := by
  have h70 := shifted_row pixx pixx' seg valid b p h
  have h82 := RowEq.mulf (RowEq.exp h70)
    (RowEq.rfl' (broadcastInDim S8x1800x36 ![0, 1, 2] bcast_S8x1x36_S8x1800x36_0_1_2 (validF (F := Ideal) valid)))
  have h86 := reduceAdd_row (constant (F := Ideal) S_ .f32 0x00000000#32) (RowEq.mulf h82
    (RowEq.rfl' (subf (broadcastInDim S8x1800x36 ![] bcast_S_S8x1800x36 (constant (F := Ideal) S_ .f32 0x3F800000#32)) (posMask (F := Ideal) valid))))
  have h91 := RowEq.subf h70 (RowEq.log (RowEq.addf h82 (bcastBack_row h86)))
  have h93 := reduceAdd_row (constant (F := Ideal) S_ .f32 0x00000000#32) (RowEq.mulf (RowEq.rfl' (posMask (F := Ideal) valid)) h91)
  unfold lossRows
  exact slot_final _ _ h93

theorem weighted_congr (rows rows' pixv : FVec Ideal S8x1800 .f32) (h : ∀ (b : Fin 8) (p : Fin 1800), pixv (ix2 b p) ≠ 0 → rows (ix2 b p) = rows' (ix2 b p)) :
    weighted (F := Ideal) rows pixv = weighted (F := Ideal) rows' pixv := by
  have e : mulf rows pixv = mulf rows' pixv := funext fun i => by
    obtain ⟨b, p, rfl⟩ : ∃ (b : Fin 8) (p : Fin 1800), i = ix2 b p := ⟨i 0, i 1, eq_ix2 i⟩
    rw [mulf_apply, mulf_apply]
    by_cases hz : pixv (ix2 b p) = 0
    · rw [hz, mul_zero, mul_zero]
    · rw [h b p hz]
  unfold weighted
  rw [e]

/-- The loss depends on the sampled rows only at slots of nonzero weight. -/
theorem lossTail_congr (pixx pixx' : FVec Ideal S8x1800x32 .f32) (seg : FVec Ideal S8x36x32 .f32) (valid : IVec S8x36 1) (pixv : FVec Ideal S8x1800 .f32)
    (h : ∀ (b : Fin 8) (p : Fin 1800), pixv (ix2 b p) ≠ 0 → ∀ d : Fin 32, pixx (ix3 b p d) = pixx' (ix3 b p d)) :
    lossTail (F := Ideal) pixx seg valid pixv = lossTail (F := Ideal) pixx' seg valid pixv := by
  unfold lossTail
  exact weighted_congr _ _ _ fun b p hz => lossRows_local pixx pixx' seg valid b p (h b p hz)

end Cert.LossCongr

end
-- ==== Proof.RefSide.lean ====
import proofs.«422442_j10376640987314_2_alg».proof.Proof.RefRead
import proofs.«422442_j10376640987314_2_alg».proof.Proof.Loss
import proofs.«422442_j10376640987314_2_alg».proof.Proof.SpecFacts
import Idealize.ShloMosaic.Lib.StableHlo.Predicate
import Idealize.ShloMosaic.Lib.ValueIdx
import Idealize.ShloMosaic.PureOps.Ideal.Laws
import Mathlib.Algebra.BigOperators.Ring.Finset
import Mathlib.Data.EReal.Basic

set_option maxRecDepth 16384

noncomputable section

namespace Cert.RefSide

open Idealize.ShloMosaic Idealize.ShloMosaic.ValueIdx Cert.ReferenceIdeal Cert.ReferenceIdeal.Gen Cert.ReferenceIdeal.ReadP Cert.Spec Cert.Loss
open Idealize.ShloMosaic.StableHlo.Predicate
open scoped BigOperators

/-- The reference's last stage is the shared loss of its sampled rows, class means, class-present bits and slot weights. -/
theorem result_eq_gen {F : FTy → Type} [FloatOps F] (x0 : FVec F S8x32x256x256 .f32) (x1 : IVec S8x256x256 32) :
    val_main_v107 (F := F) x0 x1 = lossTail (F := F) (val_main_v56 (F := F) x0 x1) (val_main_v16 (F := F) x0 x1) (val_main_v18 (F := F) x1) (val_main_v58 (F := F) x1) := rfl

theorem result_eq (x0 : FVec Ideal S8x32x256x256 .f32) (x1 : IVec S8x256x256 32) :
    val_main_v107 (F := Ideal) x0 x1 = lossTail (F := Ideal) (val_main_v56 (F := Ideal) x0 x1) (val_main_v16 (F := Ideal) x0 x1) (val_main_v18 (F := Ideal) x1) (val_main_v58 (F := Ideal) x1) :=
  result_eq_gen x0 x1

theorem uitofp_bit (b : BitVec 1) :
    FloatOps.uitofp (F := Ideal) .f32 b = if b = 1#1 then (1 : EReal) else 0 := by
  by_cases h : b = 1#1
  · subst h
    rw [if_pos rfl]
    show ((((1#1 : BitVec 1).toNat : ℕ) : ℝ) : EReal) = 1
    simp
  · rw [if_neg h, Idealize.ShloMosaic.ValueIdx.eq_zero_of_ne_one h]
    show ((((0#1 : BitVec 1).toNat : ℕ) : ℝ) : EReal) = 0
    simp

theorem cmp_gt_zero_nat (n : ℕ) :
    FloatOps.cmpf (F := Ideal) .ogt (((n : ℕ) : ℝ) : EReal) (FloatOps.ofBits (F := Ideal) .f32 0x00000000#32)
      = if 0 < n then 1#1 else 0#1 := by
  rw [Ideal.ofBits_def, Ideal.ofBits_zero_f32]
  show BitVec.ofBool (decide ((0 : EReal) < (((n : ℕ) : ℝ) : EReal))) = _
  have hiff : ((0 : EReal) < (((n : ℕ) : ℝ) : EReal)) ↔ 0 < n := by
    rw [← EReal.coe_zero, EReal.coe_lt_coe_iff, Nat.cast_pos]
  by_cases h : 0 < n
  · rw [if_pos h, decide_eq_true (hiff.2 h)]; rfl
  · rw [if_neg h, decide_eq_false (fun h' => h (hiff.1 h'))]; rfl

theorem cmp_lt_nat (m n : ℕ) (hm : m < 2 ^ 31) :
    FloatOps.cmpf (F := Ideal) .olt (FloatOps.sitofp (F := Ideal) .f32 (BitVec.ofNat 32 m)) (((n : ℕ) : ℝ) : EReal)
      = BitVec.ofBool (decide (m < n)) := by
  show BitVec.ofBool (decide (((((BitVec.ofNat 32 m).toInt : ℤ) : ℝ) : EReal) < (((n : ℕ) : ℝ) : EReal))) = _
  rw [toInt_ofNat_small m hm]
  congr 1
  rw [decide_eq_decide, EReal.coe_lt_coe_iff]
  push_cast
  exact Nat.cast_lt

theorem onehot_at (x1 : IVec S8x256x256 32) (b : Fin 8) (k : Fin 65536) (c : Fin 36) :
    val_main_v9 (F := Ideal) x1 (ix3 b k c)
      = if val_main_v2 (F := Ideal) x1 (ix2 b k) = clsWord c then (1 : EReal) else 0 := by
  rw [val_main_v9_apply, val_main_v8_apply, val_main_v6_apply, val_main_v4_apply, val_main_v7_apply, val_main_v5_apply,
    val_main_v3_apply, uitofp_bit]
  have e1 : idx_main_v4 (idx_main_v6 (ix3 b k c)) = ix2 b k :=
    funext fun a => match a with | ⟨0, _⟩ => rfl | ⟨1, _⟩ => rfl
  rw [e1]
  show (if IntOp.cmpi .eq (val_main_v2 (F := Ideal) x1 (ix2 b k)) (BitVec.ofNat 32 c.val) = 1#1 then (1 : EReal) else 0) = _
  simp only [cmpi_eq_iff]

/-- The reference's count of class c in batch b is the number of pixels that carry c. -/
theorem counts_eq (x1 : IVec S8x256x256 32) (b : Fin 8) (c : Fin 36) :
    val_main_v10 (F := Ideal) x1 (ix2 b c) = (((cntN (val_main_v2 (F := Ideal) x1) b c : ℕ) : ℝ) : EReal) := by
  rw [val_main_v10_apply, val_main_cst_apply, Ideal.ofBits_def, Ideal.ofBits_zero_f32, zero_add]
  have e : ∀ k : Fin 65536, idx_main_v10 (ix2 b c) k = ix3 b k c := fun k =>
    funext fun a => match a with | ⟨0, _⟩ => rfl | ⟨1, _⟩ => rfl | ⟨2, _⟩ => rfl
  simp only [e, onehot_at]
  rw [Cert.SpecFacts.sum_indicator]
  rfl

theorem valid_eq (x1 : IVec S8x256x256 32) (b : Fin 8) (c : Fin 36) :
    val_main_v18 (F := Ideal) x1 (ix2 b c) = if 0 < cntN (val_main_v2 (F := Ideal) x1) b c then 1#1 else 0#1 := by
  rw [val_main_v18_apply, counts_eq, val_main_v17_apply, val_main_cst_1_apply]
  exact cmp_gt_zero_nat _

theorem pixv_eq (x1 : IVec S8x256x256 32) (b : Fin 8) (p : Fin 1800) :
    val_main_v58 (F := Ideal) x1 (ix2 b p) = if p.val % 50 < cntN (val_main_v2 (F := Ideal) x1) b ⟨p.val / 50, by omega⟩ then (1 : EReal) else 0 := by
  have hb : b.val < 8 := b.isLt
  have hp : p.val < 1800 := p.isLt
  rw [val_main_v58_apply, val_main_v57_apply, val_main_v55_apply, val_main_v53_apply, val_main_v52_apply,
    val_main_v50_apply, val_main_v49_apply, val_main_v54_apply, val_main_v51_apply, uitofp_bit]
  have e1 : idx_main_v51 (idx_main_v54 (idx_main_v57 (ix2 b p))) = ix2 b (⟨p.val / 50, by omega⟩ : Fin 36) :=
    funext fun a => match a with
      | ⟨0, _⟩ => Fin.ext (show (b.val * 1800 + p.val) / 1800 = b.val by omega)
      | ⟨1, _⟩ => Fin.ext (show (b.val * 1800 + p.val) / 50 % 36 = p.val / 50 by omega)
  have e2 : ((idx_main_v50 (idx_main_v53 (idx_main_v57 (ix2 b p)))) 0).val = p.val % 50 :=
    show (b.val * 1800 + p.val) % 50 = p.val % 50 by omega
  rw [e1, e2, counts_eq, cmp_lt_nat (p.val % 50) _ (by omega)]
  simp only [ofBool_eq_one_iff, decide_eq_true_eq]

theorem segsum_eq (x0 : FVec Ideal S8x32x256x256 .f32) (x1 : IVec S8x256x256 32) (b : Fin 8) (c : Fin 36) (d : Fin 32) :
    val_main_v11 (F := Ideal) x0 x1 (ix3 b c d) = segSum (val_main_v0 (F := Ideal) x0) (val_main_v2 (F := Ideal) x1) b c d := by
  rw [val_main_v11_apply]
  unfold segSum
  refine Finset.sum_congr rfl fun k _ => ?_
  have el : lidx_main_v11 (ix3 b c d) k = ix3 b k c :=
    funext fun a => match a with | ⟨0, _⟩ => rfl | ⟨1, _⟩ => rfl | ⟨2, _⟩ => rfl
  have er : idx_main_v1 (ridx_main_v11 (ix3 b c d) k) = ix3 b d k :=
    funext fun a => match a with | ⟨0, _⟩ => rfl | ⟨1, _⟩ => rfl | ⟨2, _⟩ => rfl
  rw [el, onehot_at, val_main_v1_apply, er]

theorem seg_eq (x0 : FVec Ideal S8x32x256x256 .f32) (x1 : IVec S8x256x256 32) (b : Fin 8) (c : Fin 36) (d : Fin 32) :
    val_main_v16 (F := Ideal) x0 x1 (ix3 b c d) = segMean (val_main_v0 (F := Ideal) x0) (val_main_v2 (F := Ideal) x1) b c d := by
  rw [val_main_v16_apply, segsum_eq, val_main_v15_apply, val_main_v14_apply, val_main_v13_apply]
  have e1 : idx_main_v14 (idx_main_v15 (ix3 b c d)) = ix2 b c :=
    funext fun a => match a with | ⟨0, _⟩ => rfl | ⟨1, _⟩ => rfl
  rw [e1, counts_eq, val_main_v12_apply, val_main_cst_0_apply]
  rfl

end Cert.RefSide

end
-- ==== Proof.KCounts.lean ====
import proofs.«422442_j10376640987314_2_alg».proof.Proof.KStages
import proofs.«422442_j10376640987314_2_alg».proof.Proof.Spec
import Idealize.ShloMosaic.Lib.ValueIdx
import Idealize.ShloMosaic.Lib.Pipeline.Value
import Idealize.ShloMosaic.Lib.StableHlo.Predicate
import Idealize.ShloMosaic.PureOps.Ideal

noncomputable section

namespace Cert.KCounts

open Idealize.ShloMosaic Idealize.ShloMosaic.ValueIdx Cert.KernelIdeal Cert.KernelIdeal.Gen Cert.KStage Cert.Spec
open Idealize.ShloMosaic.StableHlo.Predicate
open scoped BigOperators

theorem roundHalfEven_natCast (n : ℕ) : Ideal.roundHalfEven (n : ℝ) = (n : ℤ) := by
  unfold Ideal.roundHalfEven
  simp

theorem fptosi_natCast (n : ℕ) (hn : n < 2 ^ 31) : Ideal.fptosi 32 (((n : ℝ)) : EReal) = BitVec.ofNat 32 n := by
  unfold Ideal.fptosi
  rw [Ideal.toIntClamped_coe, if_pos (Nat.cast_nonneg n), Int.floor_natCast]
  have h : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]; omega
  rw [h]
  exact BitVec.ofInt_natCast 32 n

theorem cnt2_apply {F : FTy → Type} [FloatOps F] (cnt : FVec F S8x1x36 .f32) (b : Fin 8) (c : Fin 36) :
    cnt2 cnt (ix2 b c) = cnt (ix3 b 0 c) := by
  unfold cnt2
  exact shapeCast_apply cnt shapeCasts_S8x1x36_S8x36 (ix2 b c) (ix3 b 0 c)
    (by rewrite [Shape.rowMajor_val_three, Shape.rowMajor_val_two]
        show (b.val * 1 + 0) * 36 + c.val = b.val * 36 + c.val
        omega)

theorem countsI_eq (cnt : FVec Ideal S8x1x36 .f32) (N : Fin 8 → Fin 36 → ℕ) (hN : ∀ b c, N b c ≤ 65536)
    (hcnt : ∀ (b : Fin 8) (c : Fin 36), cnt (ix3 b 0 c) = (((N b c : ℕ) : ℝ) : EReal)) (b : Fin 8) (c : Fin 36) :
    countsI (F := Ideal) cnt (ix2 b c) = BitVec.ofNat 32 (N b c) := by
  have h1 : countsI (F := Ideal) cnt (ix2 b c)
      = Ideal.fptosi 32 (Ideal.liftRound Ideal.roundHalfEven (cnt2 cnt (ix2 b c))) := rfl
  rw [h1, cnt2_apply, hcnt, Ideal.liftRound_coe, roundHalfEven_natCast, Int.cast_natCast]
  exact fptosi_natCast _ (by have := hN b c; omega)

theorem valid_eq (ci : IVec S8x36 32) (N : Fin 8 → Fin 36 → ℕ) (hN : ∀ b c, N b c ≤ 65536)
    (hci : ∀ b c, ci (ix2 b c) = BitVec.ofNat 32 (N b c)) (b : Fin 8) (c : Fin 36) :
    valid ci (ix2 b c) = if 0 < N b c then 1#1 else 0#1 := by
  have h1 : valid ci (ix2 b c) = IntOp.cmpi .sgt (ci (ix2 b c)) 0#32 := rfl
  rw [h1, hci]
  have hb := hN b c
  have hlt : (BitVec.ofNat 32 (N b c)).toNat = N b c := by
    rw [BitVec.toNat_ofNat]; exact Nat.mod_eq_of_lt (by omega)
  have hiff := sgt_iff_toNat (a := BitVec.ofNat 32 (N b c)) (b := 0#32) (by rw [hlt]; omega) (by decide)
  rw [hlt] at hiff
  by_cases hp : 0 < N b c
  · rw [if_pos hp]; exact hiff.mpr (by simpa using hp)
  · rw [if_neg hp]; exact eq_zero_of_ne_one (fun h => hp (by simpa using hiff.mp h))

theorem iota50_apply (b : Fin 8) (c : Fin 36) (k : Fin 50) :
    (broadcastInDim S8x36x50 ![0, 1, 2] bcast_S1x1x50_S8x36x50_0_1_2
      (broadcastInDim S1x1x50 ![2] bcast_S50_S1x1x50_2 (iotaInDim S50 32 0)) : IVec S8x36x50 32) (ix3 b c k)
      = BitVec.ofNat 32 k.val := by
  refine (broadcastInDim_apply _ bcast_S1x1x50_S8x36x50_0_1_2 _ (ix3 b c k) (ix3 (0 : Fin 1) (0 : Fin 1) k)
    (fun a => match a with
      | ⟨0, _⟩ => by show 0 = if (1 : Nat) = 1 then 0 else b.val; rw [if_pos rfl]
      | ⟨1, _⟩ => by show 0 = if (1 : Nat) = 1 then 0 else c.val; rw [if_pos rfl]
      | ⟨2, _⟩ => by show k.val = if (50 : Nat) = 1 then 0 else k.val; rw [if_neg (by decide)])).trans ?_
  refine (broadcastInDim_apply _ bcast_S50_S1x1x50_2 _ (ix3 (0 : Fin 1) (0 : Fin 1) k) (ix1 k)
    (fun a => match a with
      | ⟨0, _⟩ => by show k.val = if (50 : Nat) = 1 then 0 else k.val; rw [if_neg (by decide)])).trans ?_
  rfl

theorem rep50_apply (x : IVec S8x36 32) (b : Fin 8) (c : Fin 36) (k : Fin 50) :
    (broadcastInDim S8x36x50 ![0, 1, 2] bcast_S8x36x1_S8x36x50_0_1_2
      (broadcastInDim S8x36x1 ![0, 1] bcast_S8x36_S8x36x1_0_1 x) : IVec S8x36x50 32) (ix3 b c k) = x (ix2 b c) := by
  refine (broadcastInDim_apply _ bcast_S8x36x1_S8x36x50_0_1_2 _ (ix3 b c k) (ix3 b c (0 : Fin 1))
    (fun a => match a with
      | ⟨0, _⟩ => by show b.val = if (8 : Nat) = 1 then 0 else b.val; rw [if_neg (by decide)]
      | ⟨1, _⟩ => by show c.val = if (36 : Nat) = 1 then 0 else c.val; rw [if_neg (by decide)]
      | ⟨2, _⟩ => by show 0 = if (1 : Nat) = 1 then 0 else k.val; rw [if_pos rfl])).trans ?_
  exact broadcastInDim_apply _ bcast_S8x36_S8x36x1_0_1 x (ix3 b c (0 : Fin 1)) (ix2 b c)
    (fun a => match a with
      | ⟨0, _⟩ => by show b.val = if (8 : Nat) = 1 then 0 else b.val; rw [if_neg (by decide)]
      | ⟨1, _⟩ => by show c.val = if (36 : Nat) = 1 then 0 else c.val; rw [if_neg (by decide)])

theorem flat_apply {α : Type} (y : S8x36x50.Idx → α) (b : Fin 8) (p : Fin 1800) :
    shapeCast S8x1800 y shapeCasts_S8x36x50_S8x1800 (ix2 b p)
      = y (ix3 b (⟨p.val / 50, by omega⟩ : Fin 36) (⟨p.val % 50, Nat.mod_lt _ (by decide)⟩ : Fin 50)) := by
  exact shapeCast_apply y shapeCasts_S8x36x50_S8x1800 (ix2 b p) _
    (by rewrite [Shape.rowMajor_val_three, Shape.rowMajor_val_two]
        show (b.val * 36 + p.val / 50) * 50 + p.val % 50 = b.val * 1800 + p.val
        have := p.isLt
        omega)

theorem toNat_ofNat_small (n : ℕ) (hn : n < 2 ^ 32) : (BitVec.ofNat 32 n).toNat = n := by
  rw [BitVec.toNat_ofNat]; exact Nat.mod_eq_of_lt hn

theorem pixv_eq (ci : IVec S8x36 32) (N : Fin 8 → Fin 36 → ℕ) (hN : ∀ b c, N b c ≤ 65536)
    (hci : ∀ b c, ci (ix2 b c) = BitVec.ofNat 32 (N b c)) (b : Fin 8) (p : Fin 1800) :
    pixv (F := Ideal) ci (ix2 b p) = if p.val % 50 < N b ⟨p.val / 50, by omega⟩ then (1 : EReal) else 0 := by
  unfold pixv
  rw [flat_apply]
  set c : Fin 36 := ⟨p.val / 50, by omega⟩ with hc
  set k : Fin 50 := ⟨p.val % 50, Nat.mod_lt _ (by decide)⟩ with hk
  have h1 : (uitofp (F := Ideal) .f32 (cmpi .slt
        (broadcastInDim S8x36x50 ![0, 1, 2] bcast_S1x1x50_S8x36x50_0_1_2
          (broadcastInDim S1x1x50 ![2] bcast_S50_S1x1x50_2 (iotaInDim S50 32 0)) : IVec S8x36x50 32)
        (broadcastInDim S8x36x50 ![0, 1, 2] bcast_S8x36x1_S8x36x50_0_1_2
          (broadcastInDim S8x36x1 ![0, 1] bcast_S8x36_S8x36x1_0_1 ci))) : FVec Ideal S8x36x50 .f32) (ix3 b c k)
      = (((IntOp.cmpi .slt (BitVec.ofNat 32 k.val) (BitVec.ofNat 32 (N b c))).toNat : ℝ) : EReal) := by
    show (((IntOp.cmpi .slt _ _).toNat : ℝ) : EReal) = _
    rw [iota50_apply, rep50_apply, hci]
  rw [h1]
  have hb := hN b c
  have hkl : k.val < 50 := k.isLt
  have hiff := slt_iff_toNat (a := BitVec.ofNat 32 k.val) (b := BitVec.ofNat 32 (N b c))
    (by rw [toNat_ofNat_small _ (by omega)]; omega) (by rw [toNat_ofNat_small _ (by omega)]; omega)
  rw [toNat_ofNat_small _ (by omega), toNat_ofNat_small _ (by omega)] at hiff
  by_cases hp : k.val < N b c
  · rw [if_pos hp, hiff.mpr hp]; simp
  · rw [if_neg hp, eq_zero_of_ne_one (fun h => hp (hiff.mp h))]; simp

end Cert.KCounts

end
-- ==== Proof.KOffsets.lean ====
import proofs.«422442_j10376640987314_2_alg».proof.Proof.KStages
import proofs.«422442_j10376640987314_2_alg».proof.Proof.Spec
import proofs.«422442_j10376640987314_2_alg».proof.Proof.KCounts
import Idealize.ShloMosaic.Lib.ValueIdx
import Idealize.ShloMosaic.Lib.Pipeline.Value
import Idealize.ShloMosaic.Lib.StableHlo.Predicate

noncomputable section

namespace Cert.KOffsets

open Idealize.ShloMosaic Idealize.ShloMosaic.ValueIdx Cert.KernelIdeal Cert.KernelIdeal.Gen Cert.KStage Cert.Spec
open Idealize.ShloMosaic.StableHlo.Predicate
open scoped BigOperators
open Cert.KCounts (iota50_apply rep50_apply flat_apply)

theorem foldl_addi_ofNat {ι : Type} (h : ι → ℕ) (l : List ι) (a : ℕ) :
    l.foldl (fun r n => IntOp.addi r (BitVec.ofNat 32 (h n))) (BitVec.ofNat 32 a)
      = BitVec.ofNat 32 (a + (l.map h).sum) := by
  induction l generalizing a with
  | nil => simp
  | cons x l ih =>
    rw [List.foldl_cons, List.map_cons, List.sum_cons,
      show IntOp.addi (BitVec.ofNat 32 a) (BitVec.ofNat 32 (h x)) = BitVec.ofNat 32 (a + h x) from
        (BitVec.ofNat_add _ _).symm, ih, Nat.add_assoc]

theorem sum_map_finRange (k : ℕ) (f : ℕ → ℕ) :
    ((List.finRange k).map (fun n : Fin k => f n.val)).sum = ∑ i ∈ Finset.range k, f i := by
  rw [← Fin.sum_univ_def, Fin.sum_univ_eq_sum_range]

abbrev W36 : Shape := ⟨2, ![1, 36]⟩

theorem W36_numel : W36.numel = 36 := by decide

theorem win_coord (n : Fin W36.numel) :
    ((W36.rowMajor.symm n) 0).val = 0 ∧ ((W36.rowMajor.symm n) 1).val = n.val := by
  have h := Shape.rowMajor_val_two (W36.rowMajor.symm n)
  rw [Equiv.apply_symm_apply] at h
  have h0 : ((W36.rowMajor.symm n) 0).val < 1 := ((W36.rowMajor.symm n) 0).isLt
  have h1 : ((W36.rowMajor.symm n) 1).val < 36 := ((W36.rowMajor.symm n) 1).isLt
  have h' : n.val = ((W36.rowMajor.symm n) 0).val * 36 + ((W36.rowMajor.symm n) 1).val := h
  omega

def rowZ (N : Fin 8 → Fin 36 → ℕ) (b : Fin 8) (m : ℕ) : ℕ := if h : m < 36 then N b ⟨m, h⟩ else 0

theorem rowZ_val (N : Fin 8 → Fin 36 → ℕ) (b : Fin 8) (c : Fin 36) : rowZ N b c.val = N b c := by
  unfold rowZ; rw [dif_pos c.isLt]

theorem window_sum (N : Fin 8 → Fin 36 → ℕ) (b : Fin 8) (c : Fin 36) :
    ∑ n ∈ Finset.range 36, (if 35 ≤ c.val + n then rowZ N b (c.val + n - 35) else 0)
      = ∑ c' : Fin 36, if c'.val ≤ c.val then N b c' else 0 := by
  have hr : (∑ c' : Fin 36, if c'.val ≤ c.val then N b c' else 0)
      = ∑ m ∈ Finset.range 36, (if m ≤ c.val then rowZ N b m else 0) := by
    rw [← Fin.sum_univ_eq_sum_range (fun m => if m ≤ c.val then rowZ N b m else 0) 36]
    exact Finset.sum_congr rfl (fun c' _ => by rw [rowZ_val])
  rw [hr, ← Finset.sum_filter, ← Finset.sum_filter]
  have hc := c.isLt
  refine Finset.sum_nbij' (fun n => c.val + n - 35) (fun m => m + 35 - c.val) ?_ ?_ ?_ ?_ ?_
  · intro a ha; simp only [Finset.mem_filter, Finset.mem_range] at ha ⊢; omega
  · intro a ha; simp only [Finset.mem_filter, Finset.mem_range] at ha ⊢; omega
  · intro a ha; simp only [Finset.mem_filter, Finset.mem_range] at ha; show c.val + a - 35 + 35 - c.val = a; omega
  · intro a ha; simp only [Finset.mem_filter, Finset.mem_range] at ha; show c.val + (a + 35 - c.val) - 35 = a; omega
  · intro a _; rfl

theorem cums_eq (ci : IVec S8x36 32) (N : Fin 8 → Fin 36 → ℕ) (hci : ∀ b c, ci (ix2 b c) = BitVec.ofNat 32 (N b c))
    (b : Fin 8) (c : Fin 36) :
    cums ci (ix2 b c) = BitVec.ofNat 32 (∑ c' : Fin 36, if c'.val ≤ c.val then N b c' else 0) := by
  unfold cums Host.reduceWindow
  refine (List.foldl_ext _ (fun r (n : Fin W36.numel) => IntOp.addi r
      (BitVec.ofNat 32 (if 35 ≤ c.val + n.val then rowZ N b (c.val + n.val - 35) else 0))) _ (fun r n _ => ?_)).trans ?_
  · dsimp only
    congr 1
    obtain ⟨w0, w1⟩ := win_coord n
    have hn : n.val < 36 := lt_of_lt_of_eq n.isLt W36_numel
    have hbl := b.isLt
    have hcl := c.isLt
    split
    · next hin =>
      have h1' := hin ⟨1, Nat.one_lt_two⟩
      have h1 : 35 ≤ c.val * 1 + ((W36.rowMajor.symm n) 1).val
          ∧ c.val * 1 + ((W36.rowMajor.symm n) 1).val - 35 < 36 := h1'
      rw [w1] at h1
      have hge : 35 ≤ c.val + n.val := by omega
      rw [if_pos hge]
      refine (congrArg ci (?_ : _ = ix2 b (⟨c.val + n.val - 35, by omega⟩ : Fin 36))).trans ((hci b _).trans ?_)
      · funext a
        match a with
        | ⟨0, _⟩ =>
          exact Fin.ext (show b.val * 1 + ((W36.rowMajor.symm n) 0).val - 0 = b.val by rw [w0]; omega)
        | ⟨1, _⟩ =>
          exact Fin.ext (show c.val * 1 + ((W36.rowMajor.symm n) 1).val - 35 = c.val + n.val - 35 by rw [w1]; omega)
      · unfold rowZ; rw [dif_pos]
    · next hin =>
      have hlt : ¬ 35 ≤ c.val + n.val := by
        intro hge
        apply hin
        intro a
        match a with
        | ⟨0, _⟩ =>
          show 0 ≤ b.val * 1 + ((W36.rowMajor.symm n) 0).val ∧ b.val * 1 + ((W36.rowMajor.symm n) 0).val - 0 < 8
          rw [w0]; omega
        | ⟨1, _⟩ =>
          show 35 ≤ c.val * 1 + ((W36.rowMajor.symm n) 1).val ∧ c.val * 1 + ((W36.rowMajor.symm n) 1).val - 35 < 36
          rw [w1]; omega
      rw [if_neg hlt]
      rfl
  · refine (foldl_addi_ofNat (fun n : Fin W36.numel => if 35 ≤ c.val + n.val then rowZ N b (c.val + n.val - 35) else 0)
      (List.finRange W36.numel) 0).trans ?_
    rw [Nat.zero_add, sum_map_finRange W36.numel (fun n => if 35 ≤ c.val + n then rowZ N b (c.val + n - 35) else 0),
      W36_numel, window_sum]

theorem sum_le_split (N : Fin 8 → Fin 36 → ℕ) (b : Fin 8) (c : Fin 36) :
    (∑ c' : Fin 36, if c'.val ≤ c.val then N b c' else 0)
      = (∑ c' : Fin 36, if c'.val < c.val then N b c' else 0) + N b c := by
  have h : ∀ c' : Fin 36, (if c'.val ≤ c.val then N b c' else 0)
      = (if c'.val < c.val then N b c' else 0) + (if c' = c then N b c' else 0) := by
    intro c'
    by_cases h1 : c'.val < c.val
    · rw [if_pos (by omega), if_pos h1, if_neg (by intro h; rw [h] at h1; omega)]; rfl
    · by_cases h2 : c' = c
      · rw [h2, if_pos (le_refl _), if_neg (by omega), if_pos rfl, Nat.zero_add]
      · have : ¬ c'.val ≤ c.val := by intro h; exact h2 (Fin.ext (by omega))
        rw [if_neg this, if_neg h1, if_neg h2]
  rw [Finset.sum_congr rfl (fun c' _ => h c'), Finset.sum_add_distrib, Finset.sum_ite_eq' Finset.univ c]
  simp

/-- The offset of class c is the sum of the counts of the smaller classes. -/
theorem offset_eq (ci : IVec S8x36 32) (N : Fin 8 → Fin 36 → ℕ) (hci : ∀ b c, ci (ix2 b c) = BitVec.ofNat 32 (N b c))
    (hsum : ∀ b, (∑ c : Fin 36, N b c) ≤ 65536) (b : Fin 8) (c : Fin 36) :
    offset ci (ix2 b c) = BitVec.ofNat 32 (∑ c' : Fin 36, if c'.val < c.val then N b c' else 0) := by
  have h1 : offset ci (ix2 b c) = cums ci (ix2 b c) - ci (ix2 b c) := rfl
  rw [h1, cums_eq ci N hci, hci, sum_le_split, BitVec.ofNat_add, BitVec.add_sub_cancel]

theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  have hiff : (BitVec.ofNat 32 a).slt (BitVec.ofNat 32 b) = true ↔ a < b := by
    have h := slt_ofNat_iff a b ha hb
    rw [ofBool_eq_one_iff] at h
    exact h
  by_cases h : a < b
  · rw [if_pos (hiff.mpr h), Nat.min_eq_left (by omega)]
  · rw [if_neg (fun h' => h (hiff.mp h')), Nat.min_eq_right (by omega)]

theorem sum_lt_le (N : Fin 8 → Fin 36 → ℕ) (b : Fin 8) (m : ℕ) :
    (∑ c' : Fin 36, if c'.val < m then N b c' else 0) ≤ ∑ c' : Fin 36, N b c' :=
  Finset.sum_le_sum (fun c' _ => by split <;> omega)

theorem idxFlat_eq (ci : IVec S8x36 32) (N : Fin 8 → Fin 36 → ℕ) (hci : ∀ b c, ci (ix2 b c) = BitVec.ofNat 32 (N b c))
    (hsum : ∀ b, (∑ c : Fin 36, N b c) ≤ 65536) (b : Fin 8) (p : Fin 1800) :
    idxFlat ci (ix2 b p)
      = BitVec.ofNat 32 (min ((∑ c' : Fin 36, if c'.val < p.val / 50 then N b c' else 0) + p.val % 50) 65535) := by
  unfold idxFlat
  rw [flat_apply]
  set c : Fin 36 := ⟨p.val / 50, by omega⟩ with hc
  set k : Fin 50 := ⟨p.val % 50, Nat.mod_lt _ (by decide)⟩ with hk
  have h1 : (minsi (addi
        (broadcastInDim S8x36x50 ![0, 1, 2] bcast_S8x36x1_S8x36x50_0_1_2
          (broadcastInDim S8x36x1 ![0, 1] bcast_S8x36_S8x36x1_0_1 (offset ci)) : IVec S8x36x50 32)
        (broadcastInDim S8x36x50 ![0, 1, 2] bcast_S1x1x50_S8x36x50_0_1_2
          (broadcastInDim S1x1x50 ![2] bcast_S50_S1x1x50_2 (iotaInDim S50 32 0))))
        (broadcastInDim S8x36x50 ![] bcast_S_S8x36x50 (constantI S_ 32 65535#32)) : IVec S8x36x50 32) (ix3 b c k)
      = IntOp.minsi (BitVec.ofNat 32 ((∑ c' : Fin 36, if c'.val < c.val then N b c' else 0) + k.val))
          (BitVec.ofNat 32 65535) := by
    show IntOp.minsi (IntOp.addi _ _) _ = _
    rw [iota50_apply, rep50_apply, offset_eq ci N hci hsum]
    rw [show IntOp.addi (BitVec.ofNat 32 (∑ c' : Fin 36, if c'.val < c.val then N b c' else 0)) (BitVec.ofNat 32 k.val)
        = BitVec.ofNat 32 ((∑ c' : Fin 36, if c'.val < c.val then N b c' else 0) + k.val) from (BitVec.ofNat_add _ _).symm]
    rfl
  rw [h1]
  have hle := (sum_lt_le N b c.val).trans (hsum b)
  have hkl : k.val < 50 := k.isLt
  exact minsi_ofNat _ _ (by omega) (by norm_num)

end Cert.KOffsets

end
-- ==== Proof.KGather.lean ====
import proofs.«422442_j10376640987314_2_alg».proof.Proof.KStages
import Idealize.ShloMosaic.Lib.ValueIdx
import Idealize.ShloMosaic.Lib.Pipeline.Value
import Idealize.ShloMosaic.Lib.StableHlo.Predicate
import Idealize.ShloMosaic.PureOps.Reduce

set_option maxRecDepth 16384

noncomputable section

namespace Cert.KGather

open Idealize.ShloMosaic Idealize.ShloMosaic.ValueIdx Cert.KernelIdeal Cert.KernelIdeal.Gen Cert.KStage
open Idealize.ShloMosaic.StableHlo.Predicate

variable {F : FTy → Type} [FloatOps F]

theorem wrap_keep (w : BitVec 32) (h : w.toNat < 65536) :
    Scalar.select (IntOp.cmpi .slt w 0#32) (IntOp.addi w 65536#32) w = w := by
  have h0 : IntOp.cmpi .slt w 0#32 = 0#1 := eq_zero_of_ne_one (fun h1 => by
    have := (slt_iff_toNat (a := w) (b := 0#32) (by omega) (by decide)).mp h1
    simp at this)
  rw [h0, select_zero]

theorem inrange_bit (w : BitVec 32) (h : w.toNat < 65536) :
    IntOp.andi (IntOp.cmpi .sge w 0#32) (IntOp.cmpi .sle w 65535#32) = 1#1 := by
  rw [(sge_iff_toNat (a := w) (b := 0#32) (by omega) (by decide)).mpr (by simp),
    (sle_iff_toNat (a := w) (b := 65535#32) (by omega) (by decide)).mpr (by simp; omega)]
  rfl

theorem toInt_clamp (w : BitVec 32) (h : w.toNat < 65536) : min w.toInt.toNat (65536 - 1) = w.toNat := by
  rw [toInt_eq_toNat_of_lt (by omega)]
  simp; omega

theorem and_one_bit : ∀ y : BitVec 1, IntOp.andi y 1#1 = y := by decide

theorem fold_unit {β : Type} (n : Nat) (hn : n = 1) (op : β → β → β) [Std.Commutative op] [Std.Associative op] (init : β)
    (f : Fin n → β) : (Finset.univ : Finset (Fin n)).fold op init f = op (f ⟨0, by omega⟩) init := by
  subst hn
  rw [Finset.univ_unique, Finset.fold_singleton]
  rfl

abbrev ix21 (b : Fin 8) (p : Fin 1800) : S8x1800x1.Idx := ix3 b p (0 : Fin 1)

theorem cast21 (v : IVec S8x1800 32) (b : Fin 8) (p : Fin 1800) :
    shapeCast S8x1800x1 v shapeCasts_S8x1800_S8x1800x1 (ix21 b p) = v (ix2 b p) := by
  refine shapeCast_apply v shapeCasts_S8x1800_S8x1800x1 (ix21 b p) (ix2 b p) ?_
  rewrite [Shape.rowMajor_val_two, Shape.rowMajor_val_three]
  show b.val * 1800 + p.val = (b.val * 1800 + p.val) * 1 + 0
  omega

theorem red21 (x : IVec S8x1800x1 1) (b : Fin 8) (p : Fin 1800) :
    Host.reduce IntOp.andi x (constantI S_ 1 1#1) reducesTo_S8x1800x1_S8x1800_d2 h_S_ (ix2 b p) = x (ix21 b p) := by
  have hr : S8x1800x1.Reduces [2] S8x1800 := by decide
  rw [Host.reduce_eq_fold_single IntOp.andi x _ reducesTo_S8x1800x1_S8x1800_d2 hr h_S_ (ix2 b p)]
  rw [fold_unit (S8x1800x1.size 2) rfl]
  have hl : hr.lift (ix2 b p) ⟨0, Nat.one_pos⟩ = ix21 b p := by
    funext c
    match c with
    | ⟨0, _⟩ => exact Fin.ext rfl
    | ⟨1, _⟩ => exact Fin.ext rfl
    | ⟨2, _⟩ => exact Fin.ext rfl
  show IntOp.andi (x (hr.lift (ix2 b p) ⟨0, Nat.one_pos⟩)) 1#1 = _
  rw [hl]
  exact and_one_bit _

theorem gather21 (arr : IVec S8x65536 32) (v5 : IVec S8x1800x1 32) (b : Fin 8) (p : Fin 1800)
    (h : (v5 (ix21 b p)).toNat < 65536) :
    Host.gather gather_S8x65536_S8x1800x1_S8x1800_n_1_0_0_1_2_11 arr v5 (ix2 b p)
      = arr (ix2 b ⟨(v5 (ix21 b p)).toNat, h⟩) := by
  unfold Host.gather
  congr 1
  funext a
  match a with
  | ⟨0, _⟩ =>
    apply Fin.ext
    show gather_S8x65536_S8x1800x1_S8x1800_n_1_0_0_1_2_11.start (ix2 b p) v5 0
      + gather_S8x65536_S8x1800x1_S8x1800_n_1_0_0_1_2_11.batchCoord (ix2 b p) 0
      + gather_S8x65536_S8x1800x1_S8x1800_n_1_0_0_1_2_11.offCoord (ix2 b p) 0 = b.val
    rw [GatherDims.start_batching _ _ _ _ (List.mem_singleton.mpr rfl),
      GatherDims.offCoord_eq_zero _ _ _ (fun hk => ((GatherDims.mem_sKept _ _).mp hk).2 (List.mem_singleton.mpr rfl))]
    show 0 + gather_S8x65536_S8x1800x1_S8x1800_n_1_0_0_1_2_11.batchCoord (ix2 b p) 0 + 0 = b.val
    rw [Nat.zero_add, Nat.add_zero]
    rfl
  | ⟨1, _⟩ =>
    apply Fin.ext
    show gather_S8x65536_S8x1800x1_S8x1800_n_1_0_0_1_2_11.start (ix2 b p) v5 1
      + gather_S8x65536_S8x1800x1_S8x1800_n_1_0_0_1_2_11.batchCoord (ix2 b p) 1
      + gather_S8x65536_S8x1800x1_S8x1800_n_1_0_0_1_2_11.offCoord (ix2 b p) 1 = (v5 (ix21 b p)).toNat
    rw [GatherDims.batchCoord_eq_zero _ _ _ (by decide),
      GatherDims.offCoord_eq_zero _ _ _ (fun hk => ((GatherDims.mem_sKept _ _).mp hk).1 (List.mem_singleton.mpr rfl))]
    rw [Nat.add_zero]
    unfold GatherDims.start
    rw [dif_pos (show (1 : Fin 2) ∈ gather_S8x65536_S8x1800x1_S8x1800_n_1_0_0_1_2_11.startIndexMap from List.mem_singleton.mpr rfl)]
    have hsi : gather_S8x65536_S8x1800x1_S8x1800_n_1_0_0_1_2_11.siIdx (ix2 b p)
        ⟨List.idxOf (1 : Fin 2) gather_S8x65536_S8x1800x1_S8x1800_n_1_0_0_1_2_11.startIndexMap,
          List.idxOf_lt_length_iff.2 (List.mem_singleton.mpr rfl)⟩ = ix21 b p := by
      funext c; refine Fin.ext ?_
      match c with
      | ⟨0, _⟩ => rfl
      | ⟨1, _⟩ => rfl
      | ⟨2, _⟩ => rfl
    rw [hsi]
    exact toInt_clamp _ h

def colI (idx : IVec S8x1800 32) : IVec S8x1800x1 32 :=
  shapeCast _ (select (cmpi .slt idx (broadcastInDim S8x1800 ![] bcast_S_S8x1800 (constantI S_ 32 0#32)))
    (addi idx (broadcastInDim S8x1800 ![] bcast_S_S8x1800 (constantI S_ 32 65536#32))) idx) shapeCasts_S8x1800_S8x1800x1

def okI (v : IVec S8x1800x1 32) : IVec S8x1800x1 1 :=
  andi (cmpi .sge v (broadcastInDim S8x1800x1 ![] bcast_S_S8x1800x1 (constantI S_ 32 0#32)))
    (cmpi .sle v (broadcastInDim S8x1800x1 ![0, 1, 2] bcast_S1x1x1_S8x1800x1_0_1_2 (broadcastInDim S1x1x1 ![2] bcast_S1_S1x1x1_2 (constantI S1 32 65535#32))))

theorem takeI_def (arr : IVec S8x65536 32) (idx : IVec S8x1800 32) :
    takeI arr idx = select (Host.reduce IntOp.andi (okI (colI idx)) (constantI S_ 1 1#1) reducesTo_S8x1800x1_S8x1800_d2 h_S_)
      (Host.gather gather_S8x65536_S8x1800x1_S8x1800_n_1_0_0_1_2_11 arr (colI idx))
      (broadcastInDim S8x1800 ![] bcast_S_S8x1800 (constantI S_ 32 2147483648#32)) := rfl

theorem colI_apply (idx : IVec S8x1800 32) (b : Fin 8) (p : Fin 1800) (h : (idx (ix2 b p)).toNat < 65536) :
    colI idx (ix21 b p) = idx (ix2 b p) := by
  unfold colI
  rw [cast21]
  exact wrap_keep _ h

theorem okI_apply (v : IVec S8x1800x1 32) (j : S8x1800x1.Idx) (h : (v j).toNat < 65536) : okI v j = 1#1 :=
  inrange_bit _ h

/-- An index word below 65536 passes the range test, so the take reads the operand at that position. -/
theorem takeI_eq (arr : IVec S8x65536 32) (idx : IVec S8x1800 32) (b : Fin 8) (p : Fin 1800) (h : (idx (ix2 b p)).toNat < 65536) :
    takeI arr idx (ix2 b p) = arr (ix2 b ⟨(idx (ix2 b p)).toNat, h⟩) := by
  have hc := colI_apply idx b p h
  have hc' : (colI idx (ix21 b p)).toNat < 65536 := by rw [hc]; exact h
  rw [takeI_def, select_apply, red21, okI_apply _ _ hc', select_one, gather21 arr (colI idx) b p hc']
  exact congrArg (fun q : Fin 65536 => arr (ix2 b q)) (Fin.ext (congrArg BitVec.toNat hc))

abbrev ix31 (b : Fin 8) (d : Fin 32) (p : Fin 1800) : S8x32x1800x1.Idx := ix4 b d p (0 : Fin 1)

theorem cast31 (v : IVec S8x32x1800 32) (b : Fin 8) (d : Fin 32) (p : Fin 1800) :
    shapeCast S8x32x1800x1 v shapeCasts_S8x32x1800_S8x32x1800x1 (ix31 b d p) = v (ix3 b d p) := by
  refine shapeCast_apply v shapeCasts_S8x32x1800_S8x32x1800x1 (ix31 b d p) (ix3 b d p) ?_
  rewrite [Shape.rowMajor_val_three, Shape.rowMajor_val_four]
  show (b.val * 32 + d.val) * 1800 + p.val = ((b.val * 32 + d.val) * 1800 + p.val) * 1 + 0
  omega

theorem red31 (x : IVec S8x32x1800x1 1) (b : Fin 8) (d : Fin 32) (p : Fin 1800) :
    Host.reduce IntOp.andi x (constantI S_ 1 1#1) reducesTo_S8x32x1800x1_S8x32x1800_d3 h_S_ (ix3 b d p) = x (ix31 b d p) := by
  have hr : S8x32x1800x1.Reduces [3] S8x32x1800 := by decide
  rw [Host.reduce_eq_fold_single IntOp.andi x _ reducesTo_S8x32x1800x1_S8x32x1800_d3 hr h_S_ (ix3 b d p)]
  rw [fold_unit (S8x32x1800x1.size 3) rfl]
  have hl : hr.lift (ix3 b d p) ⟨0, Nat.one_pos⟩ = ix31 b d p := by
    funext c
    match c with
    | ⟨0, _⟩ => exact Fin.ext rfl
    | ⟨1, _⟩ => exact Fin.ext rfl
    | ⟨2, _⟩ => exact Fin.ext rfl
    | ⟨3, _⟩ => exact Fin.ext rfl
  show IntOp.andi (x (hr.lift (ix3 b d p) ⟨0, Nat.one_pos⟩)) 1#1 = _
  rw [hl]
  exact and_one_bit _

theorem gather31 {α : Type} (x : S8x32x65536.Idx → α) (v5 : IVec S8x32x1800x1 32) (b : Fin 8) (d : Fin 32) (p : Fin 1800)
    (h : (v5 (ix31 b d p)).toNat < 65536) :
    Host.gather gather_S8x32x65536_S8x32x1800x1_S8x32x1800_n_2_01_01_2_3_111 x v5 (ix3 b d p)
      = x (ix3 b d ⟨(v5 (ix31 b d p)).toNat, h⟩) := by
  unfold Host.gather
  congr 1
  funext a
  match a with
  | ⟨0, _⟩ =>
    apply Fin.ext
    show gather_S8x32x65536_S8x32x1800x1_S8x32x1800_n_2_01_01_2_3_111.start (ix3 b d p) v5 0
      + gather_S8x32x65536_S8x32x1800x1_S8x32x1800_n_2_01_01_2_3_111.batchCoord (ix3 b d p) 0
      + gather_S8x32x65536_S8x32x1800x1_S8x32x1800_n_2_01_01_2_3_111.offCoord (ix3 b d p) 0 = b.val
    rw [GatherDims.start_batching _ _ _ _ (by decide),
      GatherDims.offCoord_eq_zero _ _ _ (fun hk => ((GatherDims.mem_sKept _ _).mp hk).2 (by decide))]
    show 0 + gather_S8x32x65536_S8x32x1800x1_S8x32x1800_n_2_01_01_2_3_111.batchCoord (ix3 b d p) 0 + 0 = b.val
    rw [Nat.zero_add, Nat.add_zero]
    rfl
  | ⟨1, _⟩ =>
    apply Fin.ext
    show gather_S8x32x65536_S8x32x1800x1_S8x32x1800_n_2_01_01_2_3_111.start (ix3 b d p) v5 1
      + gather_S8x32x65536_S8x32x1800x1_S8x32x1800_n_2_01_01_2_3_111.batchCoord (ix3 b d p) 1
      + gather_S8x32x65536_S8x32x1800x1_S8x32x1800_n_2_01_01_2_3_111.offCoord (ix3 b d p) 1 = d.val
    rw [GatherDims.start_batching _ _ _ _ (by decide),
      GatherDims.offCoord_eq_zero _ _ _ (fun hk => ((GatherDims.mem_sKept _ _).mp hk).2 (by decide))]
    show 0 + gather_S8x32x65536_S8x32x1800x1_S8x32x1800_n_2_01_01_2_3_111.batchCoord (ix3 b d p) 1 + 0 = d.val
    rw [Nat.zero_add, Nat.add_zero]
    rfl
  | ⟨2, _⟩ =>
    apply Fin.ext
    show gather_S8x32x65536_S8x32x1800x1_S8x32x1800_n_2_01_01_2_3_111.start (ix3 b d p) v5 2
      + gather_S8x32x65536_S8x32x1800x1_S8x32x1800_n_2_01_01_2_3_111.batchCoord (ix3 b d p) 2
      + gather_S8x32x65536_S8x32x1800x1_S8x32x1800_n_2_01_01_2_3_111.offCoord (ix3 b d p) 2 = (v5 (ix31 b d p)).toNat
    rw [GatherDims.batchCoord_eq_zero _ _ _ (by decide),
      GatherDims.offCoord_eq_zero _ _ _ (fun hk => ((GatherDims.mem_sKept _ _).mp hk).1 (List.mem_singleton.mpr rfl))]
    rw [Nat.add_zero]
    unfold GatherDims.start
    rw [dif_pos (show (2 : Fin 3) ∈ gather_S8x32x65536_S8x32x1800x1_S8x32x1800_n_2_01_01_2_3_111.startIndexMap from List.mem_singleton.mpr rfl)]
    have hsi : gather_S8x32x65536_S8x32x1800x1_S8x32x1800_n_2_01_01_2_3_111.siIdx (ix3 b d p)
        ⟨List.idxOf (2 : Fin 3) gather_S8x32x65536_S8x32x1800x1_S8x32x1800_n_2_01_01_2_3_111.startIndexMap,
          List.idxOf_lt_length_iff.2 (List.mem_singleton.mpr rfl)⟩ = ix31 b d p := by
      funext c; refine Fin.ext ?_
      match c with
      | ⟨0, _⟩ => rfl
      | ⟨1, _⟩ => rfl
      | ⟨2, _⟩ => rfl
      | ⟨3, _⟩ => rfl
    rw [hsi]
    exact toInt_clamp _ h

def colF (idx : IVec S8x32x1800 32) : IVec S8x32x1800x1 32 :=
  shapeCast _ (select (cmpi .slt idx (broadcastInDim S8x32x1800 ![] bcast_S_S8x32x1800 (constantI S_ 32 0#32)))
    (addi idx (broadcastInDim S8x32x1800 ![] bcast_S_S8x32x1800 (constantI S_ 32 65536#32))) idx) shapeCasts_S8x32x1800_S8x32x1800x1

def okF (v : IVec S8x32x1800x1 32) : IVec S8x32x1800x1 1 :=
  andi (cmpi .sge v (broadcastInDim S8x32x1800x1 ![] bcast_S_S8x32x1800x1 (constantI S_ 32 0#32)))
    (cmpi .sle v (broadcastInDim S8x32x1800x1 ![0, 1, 2, 3] bcast_S1x1x1x1_S8x32x1800x1_0_1_2_3 (broadcastInDim S1x1x1x1 ![3] bcast_S1_S1x1x1x1_3 (constantI S1 32 65535#32))))

theorem takeF_def (embr : FVec F S8x32x65536 .f32) (idx : IVec S8x32x1800 32) :
    takeF embr idx = select (Host.reduce IntOp.andi (okF (colF idx)) (constantI S_ 1 1#1) reducesTo_S8x32x1800x1_S8x32x1800_d3 h_S_)
      (Host.gather gather_S8x32x65536_S8x32x1800x1_S8x32x1800_n_2_01_01_2_3_111 embr (colF idx))
      (broadcastInDim S8x32x1800 ![] bcast_S_S8x32x1800 (constant S_ .f32 0x7FC00000#32)) := rfl

theorem colF_apply (idx : IVec S8x32x1800 32) (b : Fin 8) (d : Fin 32) (p : Fin 1800) (h : (idx (ix3 b d p)).toNat < 65536) :
    colF idx (ix31 b d p) = idx (ix3 b d p) := by
  unfold colF
  rw [cast31]
  exact wrap_keep _ h

theorem okF_apply (v : IVec S8x32x1800x1 32) (j : S8x32x1800x1.Idx) (h : (v j).toNat < 65536) : okF v j = 1#1 :=
  inrange_bit _ h

theorem takeF_eq (embr : FVec F S8x32x65536 .f32) (idx : IVec S8x32x1800 32) (b : Fin 8) (d : Fin 32) (p : Fin 1800) (h : (idx (ix3 b d p)).toNat < 65536) :
    takeF embr idx (ix3 b d p) = embr (ix3 b d ⟨(idx (ix3 b d p)).toNat, h⟩) := by
  have hc := colF_apply idx b d p h
  have hc' : (colF idx (ix31 b d p)).toNat < 65536 := by rw [hc]; exact h
  rw [takeF_def, select_apply, red31, okF_apply _ _ hc', select_one, gather31 embr (colF idx) b d p hc']
  exact congrArg (fun q : Fin 65536 => embr (ix3 b d q)) (Fin.ext (congrArg BitVec.toNat hc))

theorem position_eq (lblr : IVec S8x65536 32) (ci : IVec S8x36 32) (b : Fin 8) (p : Fin 1800) (h1 : (idxFlat ci (ix2 b p)).toNat < 65536) :
    position lblr ci (ix2 b p) = sortedIdx lblr (ix2 b ⟨(idxFlat ci (ix2 b p)).toNat, h1⟩) :=
  takeI_eq (sortedIdx lblr) (idxFlat ci) b p h1

theorem bcast_pos (y : IVec S8x1800 32) (b : Fin 8) (d : Fin 32) (p : Fin 1800) :
    broadcastInDim S8x32x1800 ![0, 1, 2] bcast_S8x1x1800_S8x32x1800_0_1_2 (broadcastInDim S8x1x1800 ![0, 2] bcast_S8x1800_S8x1x1800_0_2 y) (ix3 b d p)
      = y (ix2 b p) := by
  rw [broadcastInDim_apply ![0, 1, 2] bcast_S8x1x1800_S8x32x1800_0_1_2 _ (ix3 b d p) (ix3 b (0 : Fin 1) p) (fun a => match a with
    | ⟨0, _⟩ => rfl
    | ⟨1, _⟩ => rfl
    | ⟨2, _⟩ => rfl)]
  exact broadcastInDim_apply ![0, 2] bcast_S8x1800_S8x1x1800_0_2 y (ix3 b (0 : Fin 1) p) (ix2 b p) (fun a => match a with
    | ⟨0, _⟩ => rfl
    | ⟨1, _⟩ => rfl)

theorem pixx_eq (embr : FVec F S8x32x65536 .f32) (lblr : IVec S8x65536 32) (ci : IVec S8x36 32) (b : Fin 8) (p : Fin 1800) (d : Fin 32)
    (h1 : (idxFlat ci (ix2 b p)).toNat < 65536)
    (h2 : (sortedIdx lblr (ix2 b ⟨(idxFlat ci (ix2 b p)).toNat, h1⟩)).toNat < 65536) :
    pixx embr lblr ci (ix3 b p d) = embr (ix3 b d ⟨(sortedIdx lblr (ix2 b ⟨(idxFlat ci (ix2 b p)).toNat, h1⟩)).toNat, h2⟩) := by
  have hv : broadcastInDim S8x32x1800 ![0, 1, 2] bcast_S8x1x1800_S8x32x1800_0_1_2
      (broadcastInDim S8x1x1800 ![0, 2] bcast_S8x1800_S8x1x1800_0_2 (position lblr ci)) (ix3 b d p)
        = sortedIdx lblr (ix2 b ⟨(idxFlat ci (ix2 b p)).toNat, h1⟩) :=
    (bcast_pos (position lblr ci) b d p).trans (position_eq lblr ci b p h1)
  unfold pixx
  rw [transpose_apply [0, 2, 1] _ transposes_S8x32x1800_S8x1800x32_0_2_1 (ix3 b p d) (ix3 b d p) (fun a => match a with
    | ⟨0, _⟩ => rfl
    | ⟨1, _⟩ => rfl
    | ⟨2, _⟩ => rfl)]
  rw [takeF_eq embr _ b d p (by rw [hv]; exact h2)]
  exact congrArg (fun q : Fin 65536 => embr (ix3 b d q)) (Fin.ext (congrArg BitVec.toNat hv))

end Cert.KGather
-- ==== Proof.RefGather.lean ====
import proofs.«422442_j10376640987314_2_alg».proof.Proof.RefRead
import proofs.«422442_j10376640987314_2_alg».proof.Proof.Spec
import proofs.«422442_j10376640987314_2_alg».proof.Proof.Gen.Pre_finite_inputs
import Idealize.ShloMosaic.Lib.ReduceAll
import Idealize.ShloMosaic.Lib.IdealHost
import Idealize.ShloMosaic.Lib.ValueLayout
import Idealize.ShloMosaic.Lib.ValueIdx
import Idealize.ShloMosaic.Lib.Pipeline.Value

noncomputable section

namespace Cert.RefGather

open Idealize.ShloMosaic Idealize.ShloMosaic.ValueIdx Cert.ReferenceIdeal Cert.ReferenceIdeal.Gen Cert.ReferenceIdeal.ReadP Cert.Spec

instance subsingleton_scalar_idx : Subsingleton Cert.Pre_finite_inputs.S_.Idx := ⟨fun a b => funext fun d => d.elim0⟩

theorem labels_of_pre (x0 : FVec Ideal S8x32x256x256 .f32) (x1 : IVec S8x256x256 32)
    (h : Cert.Pre_finite_inputs.fn (F := Ideal) x0 x1 = fun _ => 1#1) (i : S8x256x256.Idx) : (x1 i).toNat < 36 := by
  have h0 := congrFun h ix0
  dsimp only [Cert.Pre_finite_inputs.fn] at h0
  change IntOp.andi (IntOp.andi _ _) _ = 1#1 at h0
  obtain ⟨h12, h3⟩ := IntOp.andi_eq_one.1 h0
  obtain ⟨-, h2⟩ := IntOp.andi_eq_one.1 h12
  have e2 := Host.reduce_andi_all _ _ _ _ _ h2 i
  have e3 := Host.reduce_andi_all _ _ _ _ _ h3 i
  change IntOp.cmpi .sge (x1 i) _ = 1#1 at e2
  change IntOp.cmpi .slt (x1 i) _ = 1#1 at e3
  rw [broadcastInDim_scalar_apply, constantI_apply, IntOp.cmpi_sge] at e2
  rw [broadcastInDim_scalar_apply, constantI_apply, IntOp.cmpi_slt] at e3
  rw [show (0#32 : BitVec 32).toInt = 0 from by decide] at e2
  rw [show (36#32 : BitVec 32).toInt = 36 from by decide] at e3
  have hc := BitVec.toInt_eq_toNat_cond (x1 i)
  have hlt := (x1 i).isLt
  split at hc <;> omega

theorem labelsInRange_of_pre (x0 : FVec Ideal S8x32x256x256 .f32) (x1 : IVec S8x256x256 32)
    (h : Cert.Pre_finite_inputs.fn (F := Ideal) x0 x1 = fun _ => 1#1) : LabelsInRange (val_main_v2 (F := Ideal) x1) := by
  intro b n
  rw [val_main_v2_apply]
  exact labels_of_pre x0 x1 h _

theorem v31_eq (x1 : IVec S8x256x256 32) (b : Fin 8) (c : Fin 36) (k : Fin 50) :
    val_main_v31 (F := Ideal) x1 (ix3 b c k) = val_main_v30 (F := Ideal) x1 (ix3 b c ⟨k.val, by omega⟩) := by
  rw [val_main_v31_apply]
  refine congrArg _ (funext fun a => ?_)
  match a with
  | ⟨0, _⟩ => rfl
  | ⟨1, _⟩ => rfl
  | ⟨2, _⟩ => rfl

abbrev GD := gather_S8x65536x32_S8x36x50x2_S8x36x50x32_3_01_n_n_01_3_1132

theorem gather_rows {α : Type} (x : S8x65536x32.Idx → α) (idx : IVec S8x36x50x2 32)
    (b : Fin 8) (c : Fin 36) (k : Fin 50) (d : Fin 32) (s0 : Fin 8) (s1 : Fin 65536)
    (h0 : min (idx (ix4 b c k 0)).toInt.toNat 7 = s0.val)
    (h1 : min (idx (ix4 b c k 1)).toInt.toNat 65535 = s1.val) :
    Host.gather gather_S8x65536x32_S8x36x50x2_S8x36x50x32_3_01_n_n_01_3_1132 x idx (ix4 b c k d) = x (ix3 s0 s1 d) := by
  unfold Host.gather
  congr 1
  funext a
  refine Fin.ext ?_
  match a with
  | ⟨0, _⟩ =>
    show GD.start (ix4 b c k d) idx 0 + GD.batchCoord (ix4 b c k d) 0 + GD.offCoord (ix4 b c k d) 0 = s0.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ GD.startIndexMap from by decide)]
    have hsi : GD.siIdx (ix4 b c k d) ⟨List.idxOf (0 : Fin 3) GD.startIndexMap,
        List.idxOf_lt_length_iff.2 (by decide)⟩ = ix4 b c k 0 := by
      funext e; refine Fin.ext ?_
      match e with
      | ⟨0, _⟩ => rfl
      | ⟨1, _⟩ => rfl
      | ⟨2, _⟩ => rfl
      | ⟨3, _⟩ => rfl
    rw [hsi]
    exact h0
  | ⟨1, _⟩ =>
    show GD.start (ix4 b c k d) idx 1 + GD.batchCoord (ix4 b c k d) 1 + GD.offCoord (ix4 b c k d) 1 = s1.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ GD.startIndexMap from by decide)]
    have hsi : GD.siIdx (ix4 b c k d) ⟨List.idxOf (1 : Fin 3) GD.startIndexMap,
        List.idxOf_lt_length_iff.2 (by decide)⟩ = ix4 b c k 1 := by
      funext e; refine Fin.ext ?_
      match e with
      | ⟨0, _⟩ => rfl
      | ⟨1, _⟩ => rfl
      | ⟨2, _⟩ => rfl
      | ⟨3, _⟩ => rfl
    rw [hsi]
    exact h1
  | ⟨2, _⟩ =>
    show GD.start (ix4 b c k d) idx 2 + GD.batchCoord (ix4 b c k d) 2 + GD.offCoord (ix4 b c k d) 2 = d.val
    rw [GatherDims.batchCoord_eq_zero _ _ _ List.not_mem_nil]
    unfold GatherDims.start
    rw [dif_neg (show ¬ (2 : Fin 3) ∈ GD.startIndexMap from by decide)]
    unfold GatherDims.offCoord
    rw [dif_pos (show (2 : Fin 3) ∈ GD.sKept from by decide)]
    simp only [Nat.zero_add]
    rfl

theorem v47_zero (x1 : IVec S8x256x256 32) (b : Fin 8) (c : Fin 36) (k : Fin 50) :
    val_main_v47 (F := Ideal) x1 (ix4 b c k 0) = BitVec.ofNat 32 b.val := by
  unfold val_main_v47
  rw [concatenate_pair_apply_left 3 _ _ concatenates_S8x36x50x1_S8x36x50x1_S8x36x50x2_d3 (ix4 b c k 0) rfl (ix4 b c k 0)
    (fun e => match e with
      | ⟨0, _⟩ => rfl
      | ⟨1, _⟩ => rfl
      | ⟨2, _⟩ => rfl
      | ⟨3, _⟩ => rfl)]
  rw [val_main_v45_apply, val_main_v44_apply, val_main_v38_apply, val_main_v35_apply, val_main_v37_apply,
    val_main_v33_apply, val_main_v34_apply, val_main_v36_apply, val_main_v32_apply, val_main_c_2_apply,
    val_main_c_3_apply]
  show Scalar.select (IntOp.cmpi .slt (BitVec.ofNat 32 b.val) 0#32) (IntOp.addi (BitVec.ofNat 32 b.val) 8#32)
    (BitVec.ofNat 32 b.val) = BitVec.ofNat 32 b.val
  revert b; decide

theorem v47_one (x1 : IVec S8x256x256 32) (b : Fin 8) (c : Fin 36) (k : Fin 50)
    (h : (val_main_v31 (F := Ideal) x1 (ix3 b c k)).toNat < 65536) :
    val_main_v47 (F := Ideal) x1 (ix4 b c k 1) = val_main_v31 (F := Ideal) x1 (ix3 b c k) := by
  unfold val_main_v47
  rw [concatenate_pair_apply_right 3 _ _ concatenates_S8x36x50x1_S8x36x50x1_S8x36x50x2_d3 (ix4 b c k 1) rfl rfl (ix4 b c k 0)
    (fun e he => match e, he with
      | ⟨0, _⟩, _ => rfl
      | ⟨1, _⟩, _ => rfl
      | ⟨2, _⟩, _ => rfl
      | ⟨3, _⟩, he => absurd rfl he) rfl]
  rw [val_main_v46_apply, val_main_v43_apply, val_main_v40_apply, val_main_v42_apply, val_main_v39_apply,
    val_main_v41_apply, val_main_c_4_apply, val_main_c_5_apply]
  have hi : idx_main_v46 (ix4 b c k (0 : Fin 1)) = ix3 b c k := funext fun a => match a with
    | ⟨0, _⟩ => rfl
    | ⟨1, _⟩ => rfl
    | ⟨2, _⟩ => rfl
  rw [hi]
  generalize val_main_v31 (F := Ideal) x1 (ix3 b c k) = w at h ⊢
  have h1 : IntOp.cmpi .slt w 0#32 ≠ 1#1 := fun e => by
    have e' := IntOp.cmpi_slt.1 e
    rw [BitVec.toInt_eq_toNat_of_lt (by omega), show (0#32 : BitVec 32).toInt = 0 from by decide] at e'
    omega
  unfold Scalar.select
  exact if_neg h1

theorem batch_start : ∀ b : Fin 8, min (BitVec.ofNat 32 b.val).toInt.toNat 7 = b.val := by decide

theorem v1_eq (x0 : FVec Ideal S8x32x256x256 .f32) (b : Fin 8) (n : Fin 65536) (d : Fin 32) :
    val_main_v1 (F := Ideal) x0 (ix3 b n d) = val_main_v0 (F := Ideal) x0 (ix3 b d n) := by
  rw [val_main_v1_apply]
  refine congrArg _ (funext fun a => ?_)
  match a with
  | ⟨0, _⟩ => rfl
  | ⟨1, _⟩ => rfl
  | ⟨2, _⟩ => rfl

theorem pixx_ref_eq (x0 : FVec Ideal S8x32x256x256 .f32) (x1 : IVec S8x256x256 32) (b : Fin 8) (p : Fin 1800) (d : Fin 32)
    (h : (val_main_v31 (F := Ideal) x1 (ix3 b ⟨p.val / 50, by omega⟩ ⟨p.val % 50, by omega⟩)).toNat < 65536) :
    val_main_v56 (F := Ideal) x0 x1 (ix3 b p d)
      = val_main_v0 (F := Ideal) x0 (ix3 b d ⟨(val_main_v31 (F := Ideal) x1 (ix3 b ⟨p.val / 50, by omega⟩ ⟨p.val % 50, by omega⟩)).toNat, h⟩) := by
  rw [val_main_v56_apply]
  have hidx : idx_main_v56 (ix3 b p d) = ix4 b (⟨p.val / 50, by omega⟩ : Fin 36) (⟨p.val % 50, by omega⟩ : Fin 50) d := by
    funext a; refine Fin.ext ?_
    match a with
    | ⟨0, _⟩ => show ((b.val * 1800 + p.val) * 32 + d.val) / 57600 = b.val; omega
    | ⟨1, _⟩ => show ((b.val * 1800 + p.val) * 32 + d.val) / 1600 % 36 = p.val / 50; omega
    | ⟨2, _⟩ => show ((b.val * 1800 + p.val) * 32 + d.val) / 32 % 50 = p.val % 50; omega
    | ⟨3, _⟩ => show ((b.val * 1800 + p.val) * 32 + d.val) % 32 = d.val; omega
  rw [hidx]
  unfold val_main_v48
  refine (gather_rows (val_main_v1 (F := Ideal) x0) (val_main_v47 (F := Ideal) x1) b _ _ d b
    ⟨(val_main_v31 (F := Ideal) x1 (ix3 b ⟨p.val / 50, by omega⟩ ⟨p.val % 50, by omega⟩)).toNat, h⟩ ?_ ?_).trans ?_
  · rw [v47_zero]
    exact batch_start b
  · rw [v47_one x1 b _ _ h, BitVec.toInt_eq_toNat_of_lt (by omega), Int.toNat_natCast]
    exact Nat.min_eq_left (Nat.le_of_lt_succ h)
  · exact v1_eq x0 b _ d

end Cert.RefGather

end
-- ==== Proof.SortRank.lean ====
import Idealize.ShloMosaic.Lib.SortFacts
import Mathlib.Data.Finset.Sort
import Mathlib.Data.Finset.Card
import Mathlib.Data.Fintype.Fin
import Mathlib.Order.Interval.Finset.Fin

namespace Cert.SortRank
open Idealize.ShloMosaic

theorem card_lt_fin {n : ℕ} (j : Fin n) : (Finset.univ.filter fun j' : Fin n => j' < j).card = j.val := by
  have h : (Finset.univ.filter fun j' : Fin n => j' < j) = Finset.Iio j := by
    ext a
    simp
  rw [h, Fin.card_Iio]

theorem key_sortedFrom_lt {n : ℕ} (key : Fin n → ℤ) (hinj : Function.Injective key) (a b : Fin n) (hab : a < b) :
    key (sortedFrom (fun k k' => decide (key k < key k')) a)
      < key (sortedFrom (fun k k' => decide (key k < key k')) b) := by
  have h := sortedFrom_noInversion (fun k k' => decide (key k < key k')) (fun k k' => decide (key k < key k'))
    (fun x y hxy => by
      simp only [decide_eq_true_eq, decide_eq_false_iff_not, not_lt] at hxy ⊢
      exact le_of_lt hxy)
    (fun _ _ h => h)
    (fun x y z hxy hyz => by
      simp only [decide_eq_false_iff_not, not_lt] at hxy hyz ⊢
      exact le_trans hyz hxy)
    a b hab
  simp only [decide_eq_false_iff_not, not_lt] at h
  rcases lt_or_eq_of_le h with h | h
  · exact h
  · exact absurd (sortedFrom_injective _ (hinj h)) (ne_of_lt hab)

/-- Sorting pairwise distinct keys puts at place j an entry with exactly j smaller keys. -/
theorem rank_sortedFrom {n : ℕ} (key : Fin n → ℤ) (hinj : Function.Injective key) (j : Fin n) :
    (Finset.univ.filter fun i : Fin n => key i < key (sortedFrom (fun k k' => decide (key k < key k')) j)).card = j.val := by
  have hset : (Finset.univ.filter fun i : Fin n => key i < key (sortedFrom (fun k k' => decide (key k < key k')) j))
      = (Finset.univ.filter fun j' : Fin n => j' < j).image (sortedFrom (fun k k' => decide (key k < key k'))) := by
    ext i
    simp only [Finset.mem_filter, Finset.mem_univ, true_and, Finset.mem_image]
    constructor
    · intro hi
      obtain ⟨j', rfl⟩ := sortedFrom_surjective (fun k k' => decide (key k < key k')) i
      refine ⟨j', ?_, rfl⟩
      by_contra hnot
      rcases lt_or_eq_of_le (not_lt.mp hnot) with h | h
      · exact absurd (key_sortedFrom_lt key hinj j j' h) (not_lt.mpr (le_of_lt hi))
      · subst h
        exact lt_irrefl _ hi
    · rintro ⟨j', hj', rfl⟩
      exact key_sortedFrom_lt key hinj j' j hj'
  rw [hset, Finset.card_image_of_injective _ (sortedFrom_injective _), card_lt_fin]

theorem sortedFrom_eq_of_rank {n : ℕ} (key : Fin n → ℤ) (hinj : Function.Injective key) (j i : Fin n)
    (h : (Finset.univ.filter fun i' : Fin n => key i' < key i).card = j.val) :
    sortedFrom (fun k k' => decide (key k < key k')) j = i := by
  obtain ⟨j', rfl⟩ := sortedFrom_surjective (fun k k' => decide (key k < key k')) i
  rw [rank_sortedFrom key hinj j'] at h
  have e : j' = j := Fin.ext h
  subst e
  rfl

theorem slt_beq (a b : BitVec 32) : (IntOp.cmpi .slt a b == 1#1) = decide (a.toInt < b.toInt) := by
  show (BitVec.ofBool (a.slt b) == 1#1) = decide (a.toInt < b.toInt)
  rw [BitVec.slt]
  cases decide (a.toInt < b.toInt) <;> rfl

theorem sortedFrom_slt_eq_of_rank {n : ℕ} (keys : Fin n → BitVec 32)
    (hinj : Function.Injective fun k => (keys k).toInt) (j i : Fin n)
    (h : (Finset.univ.filter fun i' : Fin n => (keys i').toInt < (keys i).toInt).card = j.val) :
    sortedFrom (fun k k' => IntOp.cmpi .slt (keys k) (keys k') == 1#1) j = i := by
  have hc : sortedFrom (fun k k' => IntOp.cmpi .slt (keys k) (keys k') == 1#1)
      = sortedFrom (fun k k' => decide ((keys k).toInt < (keys k').toInt)) :=
    sortedFrom_congr _ _ fun k k' _ => slt_beq _ _
  rw [hc]
  exact sortedFrom_eq_of_rank (fun k => (keys k).toInt) hinj j i h

theorem lex_lt (a b n x y : ℕ) (hx : x < n) (hy : y < n) :
    a * n + x < b * n + y ↔ a < b ∨ (a = b ∧ x < y) := by
  rcases lt_trichotomy a b with h | h | h
  · have h1 : (a + 1) * n ≤ b * n := Nat.mul_le_mul_right n h
    rw [Nat.add_mul, Nat.one_mul] at h1
    constructor
    · intro _
      exact Or.inl h
    · intro _
      omega
  · subst h
    constructor
    · intro h'
      exact Or.inr ⟨rfl, by omega⟩
    · rintro (h' | ⟨_, h'⟩) <;> omega
  · have h1 : (b + 1) * n ≤ a * n := Nat.mul_le_mul_right n h
    rw [Nat.add_mul, Nat.one_mul] at h1
    constructor
    · intro h'
      omega
    · rintro (h' | ⟨h', _⟩) <;> omega

theorem lex_lt_int (a b n x y : ℕ) (hx : x < n) (hy : y < n) :
    ((a : ℤ) * n + x < (b : ℤ) * n + y) ↔ a < b ∨ (a = b ∧ x < y) := by
  rw [← lex_lt a b n x y hx hy]
  norm_cast

theorem rank_combined {n : ℕ} (l : Fin n → ℕ) (i : Fin n) :
    (Finset.univ.filter fun i' : Fin n => (l i' : ℤ) * n + i'.val < (l i : ℤ) * n + i.val).card
      = (Finset.univ.filter fun i' : Fin n => l i' < l i).card
        + (Finset.univ.filter fun i' : Fin n => i' < i ∧ l i' = l i).card := by
  have hset : (Finset.univ.filter fun i' : Fin n => (l i' : ℤ) * n + i'.val < (l i : ℤ) * n + i.val)
      = (Finset.univ.filter fun i' : Fin n => l i' < l i)
        ∪ (Finset.univ.filter fun i' : Fin n => i' < i ∧ l i' = l i) := by
    ext i'
    simp only [Finset.mem_filter, Finset.mem_univ, true_and, Finset.mem_union]
    rw [lex_lt_int (l i') (l i) n i'.val i.val i'.isLt i.isLt]
    constructor
    · rintro (h | ⟨h1, h2⟩)
      · exact Or.inl h
      · exact Or.inr ⟨Fin.lt_def.mpr h2, h1⟩
    · rintro (h | ⟨h1, h2⟩)
      · exact Or.inl h
      · exact Or.inr ⟨h2, Fin.lt_def.mp h1⟩
  rw [hset, Finset.card_union_of_disjoint]
  rw [Finset.disjoint_filter]
  intro i' _ h1 h2
  omega

theorem rank_perclass {n : ℕ} (l : Fin n → ℕ) (c : ℕ) (i : Fin n) (hi : l i = c) :
    (Finset.univ.filter fun i' : Fin n => (if l i' = c then (i'.val : ℤ) else (n : ℤ) + i'.val) < (i.val : ℤ)).card
      = (Finset.univ.filter fun i' : Fin n => i' < i ∧ l i' = c).card := by
  have _ := hi
  refine congrArg Finset.card (Finset.filter_congr fun i' _ => ?_)
  by_cases h : l i' = c
  · rw [if_pos h]
    constructor
    · intro h'
      exact ⟨Fin.lt_def.mpr (by exact_mod_cast h'), h⟩
    · rintro ⟨h', _⟩
      exact_mod_cast Fin.lt_def.mp h'
  · rw [if_neg h]
    constructor
    · intro h'
      exfalso
      have := i.isLt
      omega
    · rintro ⟨_, h'⟩
      exact absurd h' h

theorem exists_kth {n : ℕ} (l : Fin n → ℕ) (c k : ℕ)
    (hk : k < (Finset.univ.filter fun i : Fin n => l i = c).card) :
    ∃ i : Fin n, l i = c ∧ (Finset.univ.filter fun i' : Fin n => i' < i ∧ l i' = c).card = k := by
  let S : Finset (Fin n) := Finset.univ.filter fun i : Fin n => l i = c
  let e : Fin S.card ↪o Fin n := S.orderEmbOfFin rfl
  have hmem : ∀ j : Fin S.card, l (e j) = c := fun j =>
    (Finset.mem_filter.mp (Finset.orderEmbOfFin_mem S rfl j)).2
  refine ⟨e ⟨k, hk⟩, hmem _, ?_⟩
  have hset : (Finset.univ.filter fun i' : Fin n => i' < e ⟨k, hk⟩ ∧ l i' = c)
      = (Finset.univ.filter fun j : Fin S.card => j < ⟨k, hk⟩).map e.toEmbedding := by
    ext i'
    simp only [Finset.mem_filter, Finset.mem_univ, true_and, Finset.mem_map, RelEmbedding.coe_toEmbedding]
    constructor
    · rintro ⟨h1, h2⟩
      have hm : i' ∈ S := Finset.mem_filter.mpr ⟨Finset.mem_univ _, h2⟩
      have hr : i' ∈ Set.range (S.orderEmbOfFin rfl) := by
        rw [Finset.range_orderEmbOfFin]
        exact hm
      obtain ⟨j, rfl⟩ := hr
      exact ⟨j, e.lt_iff_lt.mp h1, rfl⟩
    · rintro ⟨j, hj, rfl⟩
      exact ⟨e.lt_iff_lt.mpr hj, hmem j⟩
  rw [hset, Finset.card_map, card_lt_fin]

/-- If each order puts at place j the entry with exactly j smaller keys, place (entries of smaller label) + k of the label-then-position order is place k of the order that lists label c first. -/
theorem kth_agree {n : ℕ} (l : Fin n → ℕ) (c k : ℕ)
    (hk : k < (Finset.univ.filter fun i : Fin n => l i = c).card)
    (σK σR : Fin n → Fin n)
    (hσK : ∀ j i : Fin n,
      (Finset.univ.filter fun i' : Fin n => (l i' : ℤ) * n + i'.val < (l i : ℤ) * n + i.val).card = j.val → σK j = i)
    (hσR : ∀ j i : Fin n,
      (Finset.univ.filter fun i' : Fin n => (if l i' = c then (i'.val : ℤ) else (n : ℤ) + i'.val)
        < (if l i = c then (i.val : ℤ) else (n : ℤ) + i.val)).card = j.val → σR j = i)
    (hoff : (Finset.univ.filter fun i : Fin n => l i < c).card + k < n) (hkn : k < n) :
    σK ⟨(Finset.univ.filter fun i : Fin n => l i < c).card + k, hoff⟩ = σR ⟨k, hkn⟩ := by
  obtain ⟨i, hi, hik⟩ := exists_kth l c k hk
  have hK : σK ⟨(Finset.univ.filter fun i : Fin n => l i < c).card + k, hoff⟩ = i := by
    apply hσK
    rw [rank_combined, hi, hik]
  have hR : σR ⟨k, hkn⟩ = i := by
    apply hσR
    rw [if_pos hi, rank_perclass l c i hi, hik]
  rw [hK, hR]

theorem inj_combined {n : ℕ} (l : Fin n → ℕ) : Function.Injective fun i : Fin n => (l i : ℤ) * n + i.val := by
  intro i i' h
  have h : (l i : ℤ) * n + i.val = (l i' : ℤ) * n + i'.val := h
  have h1 := (lex_lt_int (l i) (l i') n i.val i'.val i.isLt i'.isLt).not.mp (by
    rw [h]
    exact lt_irrefl _)
  have h2 := (lex_lt_int (l i') (l i) n i'.val i.val i'.isLt i.isLt).not.mp (by
    rw [h]
    exact lt_irrefl _)
  apply Fin.ext
  omega

theorem inj_perclass {n : ℕ} (l : Fin n → ℕ) (c : ℕ) :
    Function.Injective fun i : Fin n => if l i = c then (i.val : ℤ) else (n : ℤ) + i.val := by
  intro i i' h
  have h : (if l i = c then (i.val : ℤ) else (n : ℤ) + i.val)
      = (if l i' = c then (i'.val : ℤ) else (n : ℤ) + i'.val) := h
  have := i.isLt
  have := i'.isLt
  apply Fin.ext
  split_ifs at h <;> omega

end Cert.SortRank
-- ==== Proof.SortRead.lean ====
import proofs.«422442_j10376640987314_2_alg».proof.Proof.KStages
import proofs.«422442_j10376640987314_2_alg».proof.Proof.RefRead
import proofs.«422442_j10376640987314_2_alg».proof.Proof.Spec
import proofs.«422442_j10376640987314_2_alg».proof.Proof.SpecFacts
import proofs.«422442_j10376640987314_2_alg».proof.Proof.SortRank
import Idealize.ShloMosaic.Lib.SortFacts

noncomputable section

namespace Cert.SortRead

open Idealize.ShloMosaic Idealize.ShloMosaic.ValueIdx Cert.KStage Cert.ReferenceIdeal.ReadP Cert.Spec

theorem along_ix2_1 {n0 n1 : ℕ} (b : Fin n0) (j : Fin n1) (hd : 1 < (⟨2, ![n0, n1]⟩ : Shape).rank)
    (k : Fin ((⟨2, ![n0, n1]⟩ : Shape).size ⟨1, hd⟩)) :
    Shape.Idx.along (s := ⟨2, ![n0, n1]⟩) (ix2 b j) ⟨1, hd⟩ k = ix2 b k := by
  funext a
  match a with
  | ⟨0, _⟩ => rfl
  | ⟨1, _⟩ => rfl

theorem along_ix3_2 {n0 n1 n2 : ℕ} (b : Fin n0) (c : Fin n1) (j : Fin n2) (hd : 2 < (⟨3, ![n0, n1, n2]⟩ : Shape).rank)
    (k : Fin ((⟨3, ![n0, n1, n2]⟩ : Shape).size ⟨2, hd⟩)) :
    Shape.Idx.along (s := ⟨3, ![n0, n1, n2]⟩) (ix3 b c j) ⟨2, hd⟩ k = ix3 b c k := by
  funext a
  match a with
  | ⟨0, _⟩ => rfl
  | ⟨1, _⟩ => rfl
  | ⟨2, _⟩ => rfl

theorem keys_read (lblr : IVec Cert.KernelIdeal.S8x65536 32) (b : Fin 8) (k : Fin 65536) :
    keys lblr (ix2 b k) = lblr (ix2 b k) * 65536#32 + BitVec.ofNat 32 k.val := by
  rfl

theorem sortedIdx_read (lblr : IVec Cert.KernelIdeal.S8x65536 32) (b : Fin 8) (j : Fin 65536) :
    sortedIdx lblr (ix2 b j) = BitVec.ofNat 32 (sortedFrom (fun k k' : Fin 65536 => IntOp.cmpi .slt (keys lblr (ix2 b k)) (keys lblr (ix2 b k')) == 1#1) j).val := by
  have hd : 1 < Cert.KernelIdeal.S8x65536.rank := by decide
  unfold sortedIdx Host.sort2
  rw [dif_pos hd]
  simp only [along_ix2_1]
  rfl

theorem sortedIdx_lt (lblr : IVec Cert.KernelIdeal.S8x65536 32) (b : Fin 8) (j : Fin 65536) : (sortedIdx lblr (ix2 b j)).toNat < 65536 := by
  rw [sortedIdx_read, BitVec.toNat_ofNat]
  exact lt_of_le_of_lt (Nat.mod_le _ _) (Fin.isLt _)

theorem select_cmpi_eq {α : Type} (x y : BitVec 32) (u v : α) :
    Scalar.select (IntOp.cmpi .eq x y) u v = if x = y then u else v := by
  by_cases h : x = y
  · subst h
    rw [if_pos rfl]
    show Scalar.select (BitVec.ofBool (x == x)) u v = u
    rw [beq_self_eq_true]
    exact if_pos rfl
  · rw [if_neg h]
    show Scalar.select (BitVec.ofBool (x == y)) u v = v
    rw [beq_eq_false_iff_ne.mpr h]
    exact if_neg (by decide)

theorem v29_read (x1 : IVec Cert.ReferenceIdeal.S8x256x256 32) (b : Fin 8) (c : Fin 36) (n : Fin 65536) :
    val_main_v29 (F := Ideal) x1 (ix3 b c n) = if val_main_v2 (F := Ideal) x1 (ix2 b n) = clsWord c then BitVec.ofNat 32 n.val else 65536#32 + BitVec.ofNat 32 n.val := by
  rw [val_main_v29_apply, val_main_v24_apply, val_main_v22_apply, val_main_v20_apply, val_main_v23_apply, val_main_v21_apply,
    val_main_call0_v0_apply, val_main_v25_apply, val_main_call0_v1_apply, val_main_v28_apply, val_main_v27_apply, val_main_v26_apply]
  have hi : idx_main_v20 (idx_main_v22 (ix3 b c n)) = ix2 b n := by
    funext a
    match a with
    | ⟨0, _⟩ => rfl
    | ⟨1, _⟩ => rfl
  rw [hi]
  exact select_cmpi_eq (val_main_v2 (F := Ideal) x1 (ix2 b n)) (clsWord c) (BitVec.ofNat 32 n.val) (65536#32 + BitVec.ofNat 32 n.val)

theorem v30_read (x1 : IVec Cert.ReferenceIdeal.S8x256x256 32) (b : Fin 8) (c : Fin 36) (j : Fin 65536) :
    val_main_v30 (F := Ideal) x1 (ix3 b c j) = BitVec.ofNat 32 (sortedFrom (fun k k' : Fin 65536 => IntOp.cmpi .slt (val_main_v29 (F := Ideal) x1 (ix3 b c k)) (val_main_v29 (F := Ideal) x1 (ix3 b c k')) == 1#1) j).val := by
  have hd : 2 < Cert.ReferenceIdeal.S8x36x65536.rank := by decide
  unfold val_main_v30 Host.sort2
  rw [dif_pos hd]
  simp only [along_ix3_2]
  rfl

theorem v30_lt (x1 : IVec Cert.ReferenceIdeal.S8x256x256 32) (b : Fin 8) (c : Fin 36) (j : Fin 65536) : (val_main_v30 (F := Ideal) x1 (ix3 b c j)).toNat < 65536 := by
  rw [v30_read, BitVec.toNat_ofNat]
  exact lt_of_le_of_lt (Nat.mod_le _ _) (Fin.isLt _)

theorem toInt_of_toNat (w : BitVec 32) (m : ℕ) (h : w.toNat = m) (hm : m < 2147483648) : w.toInt = (m : ℤ) := by
  rw [BitVec.toInt_eq_toNat_of_lt (by rw [h]; omega), h]

theorem kernel_key_toInt (lbl : IVec Cert.KernelIdeal.S8x65536 32) (b : Fin 8) (n : Fin 65536) (hl : (lbl (ix2 b n)).toNat < 36) :
    (keys lbl (ix2 b n)).toInt = ((lbl (ix2 b n)).toNat : ℤ) * ((65536 : ℕ) : ℤ) + (n.val : ℤ) := by
  have hn := n.isLt
  have h : (keys lbl (ix2 b n)).toNat = (lbl (ix2 b n)).toNat * 65536 + n.val := by
    rw [keys_read, BitVec.toNat_add, BitVec.toNat_mul, BitVec.toNat_ofNat, BitVec.toNat_ofNat]
    omega
  rw [toInt_of_toNat _ _ h (by omega)]
  push_cast
  ring

theorem ref_key_toInt (x1 : IVec Cert.ReferenceIdeal.S8x256x256 32) (b : Fin 8) (c : Fin 36) (n : Fin 65536) :
    (val_main_v29 (F := Ideal) x1 (ix3 b c n)).toInt
      = if (val_main_v2 (F := Ideal) x1 (ix2 b n)).toNat = c.val then (n.val : ℤ) else ((65536 : ℕ) : ℤ) + (n.val : ℤ) := by
  have hn := n.isLt
  rw [v29_read]
  by_cases h : val_main_v2 (F := Ideal) x1 (ix2 b n) = clsWord c
  · rw [if_pos h, if_pos ((Cert.SpecFacts.word_eq_iff _ _).mp h)]
    exact toInt_of_toNat _ _ (by rw [BitVec.toNat_ofNat]; omega) (by omega)
  · rw [if_neg h, if_neg (fun h' => h ((Cert.SpecFacts.word_eq_iff _ _).mpr h'))]
    rw [toInt_of_toNat _ (65536 + n.val) (by rw [BitVec.toNat_add, BitVec.toNat_ofNat, BitVec.toNat_ofNat]; omega) (by omega)]
    push_cast
    rfl

theorem kth_core (l : Fin 65536 → ℕ) (keysK keysR : Fin 65536 → BitVec 32) (c k : ℕ)
    (hK : ∀ n : Fin 65536, (keysK n).toInt = (l n : ℤ) * ((65536 : ℕ) : ℤ) + (n.val : ℤ))
    (hR : ∀ n : Fin 65536, (keysR n).toInt = if l n = c then (n.val : ℤ) else ((65536 : ℕ) : ℤ) + (n.val : ℤ))
    (hk : k < (Finset.univ.filter fun i : Fin 65536 => l i = c).card)
    (hoff : (Finset.univ.filter fun i : Fin 65536 => l i < c).card + k < 65536) (hk' : k < 65536) :
    sortedFrom (fun a a' : Fin 65536 => IntOp.cmpi .slt (keysK a) (keysK a') == 1#1)
        ⟨(Finset.univ.filter fun i : Fin 65536 => l i < c).card + k, hoff⟩
      = sortedFrom (fun a a' : Fin 65536 => IntOp.cmpi .slt (keysR a) (keysR a') == 1#1) ⟨k, hk'⟩ := by
  refine Cert.SortRank.kth_agree l c k hk _ _ ?_ ?_ hoff hk'
  · intro j i h
    refine Cert.SortRank.sortedFrom_slt_eq_of_rank keysK ?_ j i ?_
    · rw [funext hK]
      exact Cert.SortRank.inj_combined l
    · rw [← h]
      refine congrArg Finset.card (Finset.filter_congr fun i' _ => ?_)
      rw [hK i', hK i]
  · intro j i h
    refine Cert.SortRank.sortedFrom_slt_eq_of_rank keysR ?_ j i ?_
    · rw [funext hR]
      exact Cert.SortRank.inj_perclass l c
    · rw [← h]
      refine congrArg Finset.card (Finset.filter_congr fun i' _ => ?_)
      rw [hR i', hR i]

/-- For k below the count of class c, place (pixels of smaller classes) + k of the order by label then position and place k of class c's own order hold the same pixel. -/
theorem kth_same (x1 : IVec Cert.ReferenceIdeal.S8x256x256 32) (hl : LabelsInRange (val_main_v2 (F := Ideal) x1)) (b : Fin 8) (c : Fin 36) (k : ℕ)
    (hk : k < cntN (val_main_v2 (F := Ideal) x1) b c) (hoff : offN (val_main_v2 (F := Ideal) x1) b c + k < 65536) (hk' : k < 65536) :
    sortedIdx (val_main_v2 (F := Ideal) x1) (ix2 b ⟨offN (val_main_v2 (F := Ideal) x1) b c + k, hoff⟩) = val_main_v30 (F := Ideal) x1 (ix3 b c ⟨k, hk'⟩) := by
  have hcnt : k < (Finset.univ.filter fun i : Fin 65536 => (val_main_v2 (F := Ideal) x1 (ix2 b i)).toNat = c.val).card :=
    lt_of_lt_of_eq hk (Cert.SpecFacts.cntN_eq_card _ b c)
  have hoffeq : offN (val_main_v2 (F := Ideal) x1) b c
      = (Finset.univ.filter fun i : Fin 65536 => (val_main_v2 (F := Ideal) x1 (ix2 b i)).toNat < c.val).card :=
    Cert.SpecFacts.offN_eq_card _ b c
  have hoff' : (Finset.univ.filter fun i : Fin 65536 => (val_main_v2 (F := Ideal) x1 (ix2 b i)).toNat < c.val).card + k < 65536 :=
    lt_of_eq_of_lt (congrArg (· + k) hoffeq).symm hoff
  have hidx : (⟨offN (val_main_v2 (F := Ideal) x1) b c + k, hoff⟩ : Fin 65536)
      = ⟨(Finset.univ.filter fun i : Fin 65536 => (val_main_v2 (F := Ideal) x1 (ix2 b i)).toNat < c.val).card + k, hoff'⟩ :=
    Fin.ext (congrArg (· + k) hoffeq)
  rw [sortedIdx_read, v30_read, hidx]
  exact congrArg (fun i : Fin 65536 => BitVec.ofNat 32 i.val)
    (kth_core (fun n => (val_main_v2 (F := Ideal) x1 (ix2 b n)).toNat)
      (fun n => keys (val_main_v2 (F := Ideal) x1) (ix2 b n))
      (fun n => val_main_v29 (F := Ideal) x1 (ix3 b c n)) c.val k
      (fun n => kernel_key_toInt _ b n (hl b n)) (fun n => ref_key_toInt x1 b c n) hcnt hoff' hk')

end Cert.SortRead

end
-- ==== Proof.BridgeCore.lean ====
import proofs.«422442_j10376640987314_2_alg».proof.Proof.Spec
import proofs.«422442_j10376640987314_2_alg».proof.Proof.Loss
import proofs.«422442_j10376640987314_2_alg».proof.Proof.KStages
import proofs.«422442_j10376640987314_2_alg».proof.Proof.RefRead
import proofs.«422442_j10376640987314_2_alg».proof.Proof.LossCongr
import proofs.«422442_j10376640987314_2_alg».proof.Proof.SpecFacts
import proofs.«422442_j10376640987314_2_alg».proof.Proof.RefSide
import proofs.«422442_j10376640987314_2_alg».proof.Proof.KCounts
import proofs.«422442_j10376640987314_2_alg».proof.Proof.KOffsets
import proofs.«422442_j10376640987314_2_alg».proof.Proof.KGather
import proofs.«422442_j10376640987314_2_alg».proof.Proof.RefGather
import proofs.«422442_j10376640987314_2_alg».proof.Proof.SortRead
import Idealize.ShloMosaic.Lib.ValueIdx
import Idealize.ShloMosaic.Lib.Pipeline.Value

noncomputable section

namespace Cert.BridgeCore

open Idealize.ShloMosaic Idealize.ShloMosaic.ValueIdx Cert.Spec Cert.ReferenceIdeal.ReadP Cert.KStage Cert.Loss
open scoped BigOperators

theorem segT_apply (seg : FVec Ideal Cert.KernelIdeal.S8x32x36 .f32) (b : Fin 8) (cl : Fin 36) (d : Fin 32) :
    segT (F := Ideal) seg (ix3 b cl d) = seg (ix3 b d cl) := by
  unfold segT
  exact transpose_apply [0, 2, 1] seg Cert.KernelIdeal.Gen.transposes_S8x32x36_S8x36x32_0_2_1 (ix3 b cl d) (ix3 b d cl)
    (fun a => match a with | ⟨0, _⟩ => rfl | ⟨1, _⟩ => rfl | ⟨2, _⟩ => rfl)

theorem toNat_word (n : ℕ) (hn : n < 65536) : (BitVec.ofNat 32 n).toNat = n := by
  rw [BitVec.toNat_ofNat]
  omega

/-- With every label a class and the kernel's two result arrays the class counts and the class means, the kernel-side stages and the reference's stages have the same loss. -/
theorem bridge_core (x0 : FVec Ideal Cert.ReferenceIdeal.S8x32x256x256 .f32) (x1 : IVec Cert.ReferenceIdeal.S8x256x256 32)
    (seg : FVec Ideal Cert.KernelIdeal.S8x32x36 .f32) (cnt : FVec Ideal Cert.KernelIdeal.S8x1x36 .f32)
    (hl : LabelsInRange (val_main_v2 (F := Ideal) x1))
    (hcnt : ∀ (b : Fin 8) (cl : Fin 36), cnt (ix3 b 0 cl) = (((cntN (val_main_v2 (F := Ideal) x1) b cl : ℕ) : ℝ) : EReal))
    (hseg : ∀ (b : Fin 8) (d : Fin 32) (cl : Fin 36), seg (ix3 b d cl) = segMean (val_main_v0 (F := Ideal) x0) (val_main_v2 (F := Ideal) x1) b cl d) :
    lossTail (F := Ideal) (pixx (F := Ideal) (val_main_v0 (F := Ideal) x0) (val_main_v2 (F := Ideal) x1) (countsI (F := Ideal) cnt)) (segT (F := Ideal) seg)
        (valid (countsI (F := Ideal) cnt)) (pixv (F := Ideal) (countsI (F := Ideal) cnt))
      = lossTail (F := Ideal) (val_main_v56 (F := Ideal) x0 x1) (val_main_v16 (F := Ideal) x0 x1) (val_main_v18 (F := Ideal) x1) (val_main_v58 (F := Ideal) x1) := by
  have hN : ∀ (b : Fin 8) (c : Fin 36), cntN (val_main_v2 (F := Ideal) x1) b c ≤ 65536 :=
    fun b c => Cert.SpecFacts.cntN_le _ b c
  have hci : ∀ (b : Fin 8) (c : Fin 36), countsI (F := Ideal) cnt (ix2 b c) = BitVec.ofNat 32 (cntN (val_main_v2 (F := Ideal) x1) b c) :=
    Cert.KCounts.countsI_eq cnt (cntN (val_main_v2 (F := Ideal) x1)) hN hcnt

  have e16 : (segT (F := Ideal) seg : FVec Ideal Cert.ReferenceIdeal.S8x36x32 .f32) = val_main_v16 (F := Ideal) x0 x1 := funext fun i => by
    obtain ⟨b, c, d, rfl⟩ : ∃ (b : Fin 8) (c : Fin 36) (d : Fin 32), i = ix3 b c d := ⟨i 0, i 1, i 2, eq_ix3 i⟩
    rw [segT_apply, hseg, Cert.RefSide.seg_eq]
  have e18 : (valid (countsI (F := Ideal) cnt) : IVec Cert.ReferenceIdeal.S8x36 1) = val_main_v18 (F := Ideal) x1 := funext fun i => by
    obtain ⟨b, c, rfl⟩ : ∃ (b : Fin 8) (c : Fin 36), i = ix2 b c := ⟨i 0, i 1, eq_ix2 i⟩
    rw [Cert.KCounts.valid_eq _ _ hN hci, Cert.RefSide.valid_eq]
  have e58 : (pixv (F := Ideal) (countsI (F := Ideal) cnt) : FVec Ideal Cert.ReferenceIdeal.S8x1800 .f32) = val_main_v58 (F := Ideal) x1 := funext fun i => by
    obtain ⟨b, p, rfl⟩ : ∃ (b : Fin 8) (p : Fin 1800), i = ix2 b p := ⟨i 0, i 1, eq_ix2 i⟩
    rw [Cert.KCounts.pixv_eq _ _ hN hci, Cert.RefSide.pixv_eq]
  rw [e16, e18, e58]
  refine Cert.LossCongr.lossTail_congr _ _ _ _ _ fun b p hz d => ?_

  have hp : p.val < 1800 := p.isLt
  have hc36 : p.val / 50 < 36 := by omega
  have hk50 : p.val % 50 < 50 := by omega
  rw [Cert.RefSide.pixv_eq] at hz
  have hk : p.val % 50 < cntN (val_main_v2 (F := Ideal) x1) b ⟨p.val / 50, hc36⟩ := by
    by_contra hno
    exact hz (if_neg hno)
  have hle := Cert.SpecFacts.offN_add_cntN_le (val_main_v2 (F := Ideal) x1) b ⟨p.val / 50, hc36⟩
  have hoff : offN (val_main_v2 (F := Ideal) x1) b ⟨p.val / 50, hc36⟩ + p.val % 50 < 65536 := by omega
  have hk' : p.val % 50 < 65536 := by omega

  have hidx : idxFlat (countsI (F := Ideal) cnt) (ix2 b p)
      = BitVec.ofNat 32 (offN (val_main_v2 (F := Ideal) x1) b ⟨p.val / 50, hc36⟩ + p.val % 50) := by
    rw [Cert.KOffsets.idxFlat_eq _ (cntN (val_main_v2 (F := Ideal) x1)) hci (fun b => Cert.SpecFacts.sum_cntN_le _ b) b p,
      ← Cert.SpecFacts.offN_eq_sum (val_main_v2 (F := Ideal) x1) b (p.val / 50) hc36, Nat.min_eq_left (by omega)]
  have hT : (idxFlat (countsI (F := Ideal) cnt) (ix2 b p)).toNat
      = offN (val_main_v2 (F := Ideal) x1) b ⟨p.val / 50, hc36⟩ + p.val % 50 := by
    rw [hidx, toNat_word _ hoff]
  have h1 : (idxFlat (countsI (F := Ideal) cnt) (ix2 b p)).toNat < 65536 := by rw [hT]; exact hoff
  have h2 := Cert.SortRead.sortedIdx_lt (val_main_v2 (F := Ideal) x1) b ⟨(idxFlat (countsI (F := Ideal) cnt) (ix2 b p)).toNat, h1⟩
  have hF : (⟨(idxFlat (countsI (F := Ideal) cnt) (ix2 b p)).toNat, h1⟩ : Fin 65536)
      = ⟨offN (val_main_v2 (F := Ideal) x1) b ⟨p.val / 50, hc36⟩ + p.val % 50, hoff⟩ := Fin.ext hT

  have h31 := Cert.RefGather.v31_eq x1 b ⟨p.val / 50, hc36⟩ ⟨p.val % 50, hk50⟩
  have h3 : (val_main_v31 (F := Ideal) x1 (ix3 b ⟨p.val / 50, hc36⟩ ⟨p.val % 50, hk50⟩)).toNat < 65536 := by
    rw [h31]; exact Cert.SortRead.v30_lt x1 b _ _

  have hsame : sortedIdx (val_main_v2 (F := Ideal) x1) (ix2 b ⟨(idxFlat (countsI (F := Ideal) cnt) (ix2 b p)).toNat, h1⟩)
      = val_main_v31 (F := Ideal) x1 (ix3 b ⟨p.val / 50, hc36⟩ ⟨p.val % 50, hk50⟩) :=
    (congrArg (fun j => sortedIdx (val_main_v2 (F := Ideal) x1) (ix2 b j)) hF).trans
      ((Cert.SortRead.kth_same x1 hl b ⟨p.val / 50, hc36⟩ (p.val % 50) hk hoff hk').trans h31.symm)
  rw [Cert.KGather.pixx_eq (F := Ideal) _ _ _ b p d h1 h2, Cert.RefGather.pixx_ref_eq x0 x1 b p d h3]
  exact congrArg (fun n => val_main_v0 (F := Ideal) x0 (ix3 b d n)) (Fin.ext (congrArg BitVec.toNat hsame))

end Cert.BridgeCore

end
-- ==== Proof.RefRun.lean ====
import proofs.«422442_j10376640987314_2_alg».proof.Proof.RefRead
import proofs.«422442_j10376640987314_2_alg».proof.Proof.LibAfter

noncomputable section

namespace Cert.RefRun

open Idealize.ShloMosaic Idealize.ShloMosaic.StableHlo
open Cert.ReferenceIdeal Cert.ReferenceIdeal.Gen Cert.ReferenceIdeal.ValueP Cert.ReferenceIdeal.ReadP
open Idealize.ShloMosaic.TcCoe Idealize.SL.Sem

variable {F : FTy → Type} [FloatOps F]

/-- After the first 59 operations, each buffer a later operation still reads holds its stage of the two arguments. -/
theorem pre_facts (V : Valuation τ sig (Elt F)) :
    (after ((ops (F := F)).take 59) V (main_v45 : DevRef τ sig) = val_main_v45 (F := F))
      ∧ (after ((ops (F := F)).take 59) V (main_v46 : DevRef τ sig) = val_main_v46 (F := F) (V (main_arg1 : DevRef τ sig)))
      ∧ (after ((ops (F := F)).take 59) V (main_v1 : DevRef τ sig) = val_main_v1 (F := F) (V (main_arg0 : DevRef τ sig)))
      ∧ (after ((ops (F := F)).take 59) V (main_v10 : DevRef τ sig) = val_main_v10 (F := F) (V (main_arg1 : DevRef τ sig)))
      ∧ (after ((ops (F := F)).take 59) V (main_v3 : DevRef τ sig) = val_main_v3 (F := F))
      ∧ (after ((ops (F := F)).take 59) V (main_v16 : DevRef τ sig) = val_main_v16 (F := F) (V (main_arg0 : DevRef τ sig)) (V (main_arg1 : DevRef τ sig)))
      ∧ (after ((ops (F := F)).take 59) V (main_v18 : DevRef τ sig) = val_main_v18 (F := F) (V (main_arg1 : DevRef τ sig))) := by
  simp only [ops, List.take_succ_cons, List.take_zero]
  refine ⟨?_, ?_, ?_, ?_, ?_, ?_, ?_⟩ <;> (after_results_simp; rfl)

/-- Every buffer is written once, so the whole line leaves the last stage of the two arguments in the last buffer. -/
theorem after_ops (V : Valuation τ sig (Elt F)) :
    after (ops (F := F)) V (main_v107 : DevRef τ sig)
      = val_main_v107 (F := F) (V (main_arg0 : DevRef τ sig)) (V (main_arg1 : DevRef τ sig)) := by
  rw [← List.take_append_drop 59 (ops (F := F)), after_append]
  obtain ⟨h0, h1, h2, h3, h4, h5, h6⟩ := pre_facts V
  generalize after ((ops (F := F)).take 59) V = W at *
  simp only [ops, List.drop_succ_cons, List.drop_zero]
  after_results_simp
  rw [h0, h1, h2, h3, h4, h5, h6]
  rfl

/-- Every weakly fair execution of the reference ends with the last stage of the arguments in the result buffer and both arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107)
          = val_main_v107 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v107).trans (after_ops (launchContents m c)),
        (h c main_arg0).trans (by after_results_simp),
        (h c main_arg1).trans (by after_results_simp)⟩)
    (run_seq scopedRefs_eq scopedSems_eq defs main (fun _ => ops) main_eq (fun _ => ops_sub) m ρ)

end Cert.RefRun

end
-- ==== Proof.Final.lean ====
import proofs.«422442_j10376640987314_2_alg».proof.Defs
import proofs.«422442_j10376640987314_2_alg».proof.Proof.FrameK.Frame
import proofs.«422442_j10376640987314_2_alg».proof.Proof.FrameKI.Frame
import proofs.«422442_j10376640987314_2_alg».proof.Proof.KTail
import proofs.«422442_j10376640987314_2_alg».proof.Proof.KValue
import proofs.«422442_j10376640987314_2_alg».proof.Proof.BridgeCore
import proofs.«422442_j10376640987314_2_alg».proof.Proof.RefSide
import proofs.«422442_j10376640987314_2_alg».proof.Proof.RefGather
import proofs.«422442_j10376640987314_2_alg».proof.Proof.RefRun

noncomputable section

namespace Cert.Final

open Idealize.ShloMosaic Idealize.ShloMosaic.TcCoe Idealize.SL.Sem Idealize.ShloMosaic.ValueIdx
open Cert.ReferenceIdeal.ReadP

/-- Under the precondition the kernel program's result buffer ends at the reference's last stage of the same arguments. -/
theorem kernel_result_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = (fun _ => 1#1)) :
    Pipeline.afterTail₀ Cert.KernelIdeal.cfgs (Cert.KernelIdeal.Fr.dats m) 0 (Cert.KernelIdeal.Fr.V0 m) Cert.KernelIdeal.Fr.tailOps c Cert.KernelIdeal.main_v88
      = val_main_v107 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  have hl := Cert.RefGather.labelsInRange_of_pre _ _ hpre
  have h0 := Cert.KTail.V_main_v0 (F := Ideal) m c
  have h1 := Cert.KTail.V_main_v1 (F := Ideal) m c
  refine (Cert.KTail.tail_eq (F := Ideal) m (Cert.KernelIdeal.Fr.dats m) c (Cert.KernelIdeal.Fr.A_eq m c)).trans ?_
  rw [Cert.RefSide.result_eq, h0, h1]
  exact Cert.BridgeCore.bridge_core _ _ _ _ hl
    (fun b cl => by rw [Cert.KValue.cnt_final m c b cl, h1]; rfl)
    (fun b d cl => by rw [Cert.KValue.seg_final m c b d cl, h0, h1]; rfl)

theorem frame_p : Cert.frame_Kernel := fun m ρ _ => Cert.Kernel.Fr.frame (F := Bits) m ρ

theorem frame_pi : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

theorem algebraic : Cert.algebraic_KernelIdeal_ReferenceIdeal := by
  intro m ρ m' ρ' hpre hagree
  refine ⟨fun c => val_main_v107 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Fr.run_main (F := Ideal) m ρ)
    · exact ((h c).2 Cert.KernelIdeal.main_v88 (Pipeline.mem_restRefs_of Cert.KernelIdeal.main_v88 rfl (by decide))).trans (kernel_result_eq m c (hpre c))
    · exact ((h c).2 Cert.KernelIdeal.main_arg0 (Pipeline.mem_restRefs_of Cert.KernelIdeal.main_arg0 rfl (by decide))).trans
        (Cert.KernelIdeal.Fr.W_main_arg0 m (Cert.KernelIdeal.Fr.dats m) c)
    · exact ((h c).2 Cert.KernelIdeal.main_arg1 (Pipeline.mem_restRefs_of Cert.KernelIdeal.main_arg1 rfl (by decide))).trans
        (Cert.KernelIdeal.Fr.W_main_arg1 m (Cert.KernelIdeal.Fr.dats m) c)
  · refine (θ_run Cert.ReferenceIdeal.defs _ _).mono (fun r h c => ⟨?_, (h c).2.1, (h c).2.2⟩) (Cert.RefRun.run (F := Ideal) m' ρ')
    rw [(h c).1, (hagree c).1, (hagree c).2]

end Cert.Final

end
-- ==== Proof.lean ====
import proofs.«422442_j10376640987314_2_alg».proof.Defs
import proofs.«422442_j10376640987314_2_alg».proof.Proof.Gen.Kernel
import proofs.«422442_j10376640987314_2_alg».proof.Proof.Gen.KernelIdeal
import proofs.«422442_j10376640987314_2_alg».proof.Proof.Gen.ReferenceIdeal
import proofs.«422442_j10376640987314_2_alg».proof.Proof.Gen.Pre_finite_inputs
import proofs.«422442_j10376640987314_2_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Final.frame_p, Cert.Final.frame_pi, Cert.Final.frame_ri, Cert.Final.preserves, Cert.Final.algebraic⟩

end Cert.Proof

end
